-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S2048x2048 : Shape := ⟨2, ![2048, 2048]⟩
abbrev S2048 : Shape := ⟨1, ![2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_

variable [Facts]

def fn_part1 {F : FTy → Type} [FloatOps F] (main_arg4 : FVec F S2048 .f32) (main_v13 : IVec S_ 1) (main_v16 : IVec S2048 1) : IVec S_ 1 :=
  let main_c_5 : IVec S_ 1 := constantI S_ 1 1#1
  let main_v17 : IVec S_ 1 := (fun x v => Host.reduce IntOp.andi x v reducesTo_S2048_S_d0 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  main_v23

def fn {F : FTy → Type} [FloatOps F] (main_arg0 : FVec F S8192x2048 .f32) (main_arg1 : FVec F S2048x2048 .f32) (main_arg2 : FVec F S2048 .f32) (main_arg3 : FVec F S2048 .f32) (main_arg4 : FVec F S2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S2048 .f32 := Host.absf main_arg3
  let main_cst_4 : FVec F S_ .f32 := constant S_ .f32 0x7F800000#32
  let main_v15 : FVec F S2048 .f32 := broadcastInDim S2048 ![] bcast_S_S2048 main_cst_4
  let main_v16 : IVec S2048 1 := cmpf .olt main_v14 main_v15
  fn_part1 (F := F) main_arg4 main_v13 main_v16
-- ==== Kernel.lean ====
abbrev S8192x2048 : Shape := ⟨2, ![8192, 2048]⟩
abbrev S2048x2048 : Shape := ⟨2, ![2048, 2048]⟩
abbrev S2048 : Shape := ⟨1, ![2048]⟩
abbrev S_ : Shape := ⟨0, ![]⟩
abbrev S1x2048 : Shape := ⟨2, ![1, 2048]⟩
abbrev S512x512 : Shape := ⟨2, ![512, 512]⟩
abbrev S2048x512 : Shape := ⟨2, ![2048, 512]⟩
abbrev S512x2048 : Shape := ⟨2, ![512, 2048]⟩
abbrev S256x2048 : Shape := ⟨2, ![256, 2048]⟩

abbrev nBuf : Space → Nat
  | .hbm => 42
  | .vmem => 22
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S2048, .f32⟩
  | .hbm, ⟨3, _⟩ => ⟨S2048, .f32⟩
  | .hbm, ⟨4, _⟩ => ⟨S2048, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S2048x2048, .f32⟩
  | .hbm, ⟨9, _⟩ => ⟨S2048x2048, .f32⟩
  | .hbm, ⟨10, _⟩ => ⟨S_, .f32⟩
  | .hbm, ⟨11, _⟩ => ⟨S2048x2048, .f32⟩
  | .hbm, ⟨12, _⟩ => ⟨S2048x2048, .f32⟩
  | .hbm, ⟨13, _⟩ => ⟨S_, .f32⟩
  | .hbm, ⟨14, _⟩ => ⟨S2048x2048, .f32⟩
  | .hbm, ⟨15, _⟩ => ⟨S2048x2048, .f32⟩
  | .hbm, ⟨16, _⟩ => ⟨S2048x2048, .f32⟩
  | .hbm, ⟨17, _⟩ => ⟨S_, .f32⟩
  | .hbm, ⟨18, _⟩ => ⟨S2048x2048, .f32⟩
  | .hbm, ⟨19, _⟩ => ⟨S2048x2048, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S2048, .f32⟩
  | .hbm, ⟨24, _⟩ => ⟨S2048, .f32⟩
  | .hbm, ⟨25, _⟩ => ⟨S_, .f32⟩
  | .hbm, ⟨26, _⟩ => ⟨S2048, .f32⟩
  | .hbm, ⟨27, _⟩ => ⟨S2048, .f32⟩
  | .hbm, ⟨28, _⟩ => ⟨S_, .f32⟩
  | .hbm, ⟨29, _⟩ => ⟨S2048, .f32⟩
  | .hbm, ⟨30, _⟩ => ⟨S2048, .f32⟩
  | .hbm, ⟨31, _⟩ => ⟨S2048, .f32⟩
  | .hbm, ⟨32, _⟩ => ⟨S_, .f32⟩
  | .hbm, ⟨33, _⟩ => ⟨S2048, .f32⟩
  | .hbm, ⟨34, _⟩ => ⟨S2048, .f32⟩
  | .hbm, ⟨35, _⟩ => ⟨S1x2048, .f32⟩
  | .hbm, ⟨36, _⟩ => ⟨S1x2048, .f32⟩
  | .hbm, ⟨37, _⟩ => ⟨S1x2048, .f32⟩
  | .hbm, ⟨38, _⟩ => ⟨S8192x2048, .f32⟩
  | .hbm, ⟨39, _⟩ => ⟨S1x2048, .f32⟩
  | .hbm, ⟨40, _⟩ => ⟨S1x2048, .f32⟩
  | .hbm, ⟨41, _⟩ => ⟨S8192x2048, .f32⟩
  | .local _ .vmem, ⟨0, _⟩ => ⟨S512x512, .f32⟩
  | .local _ .vmem, ⟨1, _⟩ => ⟨S512x512, .f32⟩
  | .local _ .vmem, ⟨2, _⟩ => ⟨S2048x512, .f32⟩
  | .local _ .vmem, ⟨3, _⟩ => ⟨S2048x512, .f32⟩
  | .local _ .vmem, ⟨4, _⟩ => ⟨S1x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .f32⟩
  | .local _ .vmem, ⟨10, _⟩ => ⟨S1x2048, .f32⟩
  | .local _ .vmem, ⟨11, _⟩ => ⟨S1x2048, .f32⟩
  | .local _ .vmem, ⟨12, _⟩ => ⟨S1x2048, .f32⟩
  | .local _ .vmem, ⟨13, _⟩ => ⟨S1x2048, .f32⟩
  | .local _ .vmem, ⟨14, _⟩ => ⟨S256x2048, .f32⟩
  | .local _ .vmem, ⟨15, _⟩ => ⟨S256x2048, .f32⟩
  | .local _ .vmem, ⟨16, _⟩ => ⟨S1x2048, .f32⟩
  | .local _ .vmem, ⟨17, _⟩ => ⟨S1x2048, .f32⟩
  | .local _ .vmem, ⟨18, _⟩ => ⟨S1x2048, .f32⟩
  | .local _ .vmem, ⟨19, _⟩ => ⟨S1x2048, .f32⟩
  | .local _ .vmem, ⟨20, _⟩ => ⟨S256x2048, .f32⟩
  | .local _ .vmem, ⟨21, _⟩ => ⟨S256x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_cst_0 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_v0 : Ref sig .tc := ⟨.hbm, 12, rfl⟩
abbrev main_cst_1 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst_2 : Ref sig .tc := ⟨.hbm, 17, rfl⟩
abbrev main_v4 : Ref sig .tc := ⟨.hbm, 18, rfl⟩
abbrev main_v5 : Ref sig .tc := ⟨.hbm, 19, rfl⟩
abbrev main_cst_3 : Ref sig .tc := ⟨.hbm, 20, rfl⟩
abbrev main_cst_4 : Ref sig .tc := ⟨.hbm, 21, rfl⟩
abbrev main_call2_v0 : Ref sig .tc := ⟨.hbm, 22, rfl⟩
abbrev main_call2_v1 : Ref sig .tc := ⟨.hbm, 23, rfl⟩
abbrev main_call2_v2 : Ref sig .tc := ⟨.hbm, 24, rfl⟩
abbrev main_call2_v3 : Ref sig .tc := ⟨.hbm, 25, rfl⟩
abbrev main_call2_v4 : Ref sig .tc := ⟨.hbm, 26, rfl⟩
abbrev main_v6 : Ref sig .tc := ⟨.hbm, 27, rfl⟩
abbrev main_cst_5 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_cst_6 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16_0 : Ref sig .tc := ⟨.hbm, 39, rfl⟩
abbrev main_v16_1 : Ref sig .tc := ⟨.hbm, 40, rfl⟩
abbrev main_v17 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_scratch0 : Ref sig .tc := ⟨.vmem, 12, rfl⟩
abbrev cc1_scratch1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg5_0 : Ref sig .tc := ⟨.vmem, 20, rfl⟩
abbrev cc2_stg5_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem4_0 : DmaSem sig := 16
abbrev cc2_sem5_0 : DmaSem sig := 17
abbrev cc2_sem5_1 : DmaSem sig := 18

abbrev nD : Nat := 1
abbrev τ : Topo := Topo.v7x

variable {F : FTy → Type} [FloatOps F]

abbrev grid0 : Pipeline.Grid := ⟨2, ![16, 4], ![false, false]⟩

def k0_cond2 (i : grid0.Coords) : BitVec 1 :=
  let arg1 : BitVec 32 := BitVec.ofNat 32 (i 1).val
  let c3_i32 : BitVec 32 := 3#32
  let v14 : BitVec 1 := Scalar.cmpi .eq arg1 c3_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨1, ![16], ![false]⟩

def k1_cond2 (i : grid1.Coords) : BitVec 1 :=
  let arg0 : BitVec 32 := BitVec.ofNat 32 (i 0).val
  let c15_i32 : BitVec 32 := 15#32
  let v20 : BitVec 1 := Scalar.cmpi .eq arg0 c15_i32
  let v21 : BitVec 32 := Scalar.extui v20
  let c0_i32_11 : BitVec 32 := 0#32
  let v22 : BitVec 1 := Scalar.cmpi .ne v21 c0_i32_11
  v22

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S512x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x2048 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x2048 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x2048 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x2048 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x2048 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x2048 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x2048 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S256x2048 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  bcast_S_S2048x2048 : S_.BroadcastsInDim S2048x2048 (![] : Fin 0 → Fin S2048x2048.rank)
  bcast_S_S2048 : S_.BroadcastsInDim S2048 (![] : Fin 0 → Fin S2048.rank)
  shapeCasts_S2048_S1x2048 : S2048.ShapeCasts S1x2048
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S512x512_S512x512_0_0 : ∀ a, (![0, 0] : Fin 2 → Nat) a + S512x512.size a ≤ S512x512.size a
  h_S512x512 : 0 < S512x512.numel
  bitsLt_bf16_f32 : FTy.bits .bf16 < FTy.bits .f32
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  reduces_S512x2048_S2048 : S512x2048.Reduces [0] S2048
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  broadcasts_S1x2048_S256x2048 : S1x2048.Broadcasts S256x2048
  dot_S512x512_S2048x512_S512x2048_1_1_0_0_n_n_wf : DotDims.WF S512x512 S2048x512 S512x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S8192x2048.size a
  hwx0_0 : ∀ i : grid0.Coords, EltTy.bits .f32 = 32 ∨ (Rect.block (s := S8192x2048) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S2048x2048.size a
  hwx0_1 : ∀ i : grid0.Coords, EltTy.bits .f32 = 32 ∨ (Rect.block (s := S2048x2048) S2048x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S8192x2048.size a
  hwx0_3 : ∀ i : grid0.Coords, EltTy.bits .f32 = 32 ∨ (Rect.block (s := S8192x2048) S512x2048.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x2048.size a ≤ S8192x2048.size a
  hwx1_0 : ∀ i : grid1.Coords, EltTy.bits .f32 = 32 ∨ (Rect.block (s := S8192x2048) S512x2048.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x2048.size a ≤ S1x2048.size a
  hwx1_1 : ∀ i : grid1.Coords, EltTy.bits .f32 = 32 ∨ (Rect.block (s := S1x2048) S1x2048.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x2048.size a ≤ S1x2048.size a
  hwx1_2 : ∀ i : grid1.Coords, EltTy.bits .f32 = 32 ∨ (Rect.block (s := S1x2048) S1x2048.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S256x2048.size a ≤ S8192x2048.size a
  hwx2_0 : ∀ i : grid2.Coords, EltTy.bits .f32 = 32 ∨ (Rect.block (s := S8192x2048) S256x2048.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x2048.size a ≤ S1x2048.size a
  hwx2_1 : ∀ i : grid2.Coords, EltTy.bits .f32 = 32 ∨ (Rect.block (s := S1x2048) S1x2048.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x2048.size a ≤ S1x2048.size a
  hwx2_2 : ∀ i : grid2.Coords, EltTy.bits .f32 = 32 ∨ (Rect.block (s := S1x2048) S1x2048.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x2048.size a ≤ S1x2048.size a
  hwx2_3 : ∀ i : grid2.Coords, EltTy.bits .f32 = 32 ∨ (Rect.block (s := S1x2048) S1x2048.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x2048.size a ≤ S1x2048.size a
  hwx2_4 : ∀ i : grid2.Coords, EltTy.bits .f32 = 32 ∨ (Rect.block (s := S1x2048) S1x2048.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S256x2048.size a ≤ S8192x2048.size a
  hwx2_5 : ∀ i : grid2.Coords, EltTy.bits .f32 = 32 ∨ (Rect.block (s := S8192x2048) S256x2048.size (cc2_transform_5 i) (hinb2_5 i)).WholeWords (EltTy.packing .f32)

variable [Facts₀]

def dot_S512x512_S2048x512_S512x2048_1_1_0_0_n_n : DotDims S512x512 S2048x512 S512x2048 where
  lhsContracting := [1]
  rhsContracting := [1]
  lhsNonContracting := [0]
  rhsNonContracting := [0]
  lhsBatch := []
  rhsBatch := []
  wf := dot_S512x512_S2048x512_S512x2048_1_1_0_0_n_n_wf

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S512x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v15) S512x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16_0) S1x2048.size cc1_transform_1 reads1_1 true true 1 stage1_1 sem1_1
    hrank1 hreads1_1 hinb1_1 nbuf1_1 (Memref.isWhole_whole _) hwx1_1 hstage1_1

abbrev win1_2 : Pipeline.Window sig grid1 :=
  Pipeline.Window.ofSpec (Memref.whole main_v16_1) S1x2048.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun i => !(k1_cond2 i == 1#1) | 2 => fun i => !(k1_cond2 i == 1#1) | ⟨_ + 3, h⟩ => absurd h (Nat.not_lt.2 (Nat.le_add_left _ _))

abbrev win2_0 : Pipeline.Window sig grid2 :=
  Pipeline.Window.ofSpec (Memref.whole main_v15) S256x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v16_0) S1x2048.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v16_1) S1x2048.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v13) S1x2048.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v14) S1x2048.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v17) S256x2048.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S8192x2048 : Shape := ⟨2, ![8192, 2048]⟩
abbrev S2048x2048 : Shape := ⟨2, ![2048, 2048]⟩
abbrev S2048 : Shape := ⟨1, ![2048]⟩
abbrev S_ : Shape := ⟨0, ![]⟩
abbrev S1x2048 : Shape := ⟨2, ![1, 2048]⟩

abbrev nBuf : Space → Nat
  | .hbm => 125
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S2048, .f32⟩
  | .hbm, ⟨3, _⟩ => ⟨S2048, .f32⟩
  | .hbm, ⟨4, _⟩ => ⟨S2048, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S2048x2048, .f32⟩
  | .hbm, ⟨9, _⟩ => ⟨S2048x2048, .f32⟩
  | .hbm, ⟨10, _⟩ => ⟨S_, .f32⟩
  | .hbm, ⟨11, _⟩ => ⟨S2048x2048, .f32⟩
  | .hbm, ⟨12, _⟩ => ⟨S2048x2048, .f32⟩
  | .hbm, ⟨13, _⟩ => ⟨S_, .f32⟩
  | .hbm, ⟨14, _⟩ => ⟨S2048x2048, .f32⟩
  | .hbm, ⟨15, _⟩ => ⟨S2048x2048, .f32⟩
  | .hbm, ⟨16, _⟩ => ⟨S2048x2048, .f32⟩
  | .hbm, ⟨17, _⟩ => ⟨S_, .f32⟩
  | .hbm, ⟨18, _⟩ => ⟨S2048x2048, .f32⟩
  | .hbm, ⟨19, _⟩ => ⟨S2048x2048, .f32⟩
  | .hbm, ⟨20, _⟩ => ⟨S2048x2048, .f32⟩
  | .hbm, ⟨21, _⟩ => ⟨S2048x2048, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S2048, .f32⟩
  | .hbm, ⟨26, _⟩ => ⟨S2048, .f32⟩
  | .hbm, ⟨27, _⟩ => ⟨S_, .f32⟩
  | .hbm, ⟨28, _⟩ => ⟨S2048, .f32⟩
  | .hbm, ⟨29, _⟩ => ⟨S2048, .f32⟩
  | .hbm, ⟨30, _⟩ => ⟨S_, .f32⟩
  | .hbm, ⟨31, _⟩ => ⟨S2048, .f32⟩
  | .hbm, ⟨32, _⟩ => ⟨S2048, .f32⟩
  | .hbm, ⟨33, _⟩ => ⟨S2048, .f32⟩
  | .hbm, ⟨34, _⟩ => ⟨S_, .f32⟩
  | .hbm, ⟨35, _⟩ => ⟨S2048, .f32⟩
  | .hbm, ⟨36, _⟩ => ⟨S2048, .f32⟩
  | .hbm, ⟨37, _⟩ => ⟨S2048, .f32⟩
  | .hbm, ⟨38, _⟩ => ⟨S2048, .f32⟩
  | .hbm, ⟨39, _⟩ => ⟨S2048x2048, .f32⟩
  | .hbm, ⟨40, _⟩ => ⟨S8192x2048, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S8192x2048, .f32⟩
  | .hbm, ⟨45, _⟩ => ⟨S8192x2048, .f32⟩
  | .hbm, ⟨46, _⟩ => ⟨S_, .f32⟩
  | .hbm, ⟨47, _⟩ => ⟨S8192x2048, .f32⟩
  | .hbm, ⟨48, _⟩ => ⟨S8192x2048, .f32⟩
  | .hbm, ⟨49, _⟩ => ⟨S_, .f32⟩
  | .hbm, ⟨50, _⟩ => ⟨S8192x2048, .f32⟩
  | .hbm, ⟨51, _⟩ => ⟨S8192x2048, .f32⟩
  | .hbm, ⟨52, _⟩ => ⟨S8192x2048, .f32⟩
  | .hbm, ⟨53, _⟩ => ⟨S_, .f32⟩
  | .hbm, ⟨54, _⟩ => ⟨S8192x2048, .f32⟩
  | .hbm, ⟨55, _⟩ => ⟨S8192x2048, .f32⟩
  | .hbm, ⟨56, _⟩ => ⟨S8192x2048, .f32⟩
  | .hbm, ⟨57, _⟩ => ⟨S8192x2048, .f32⟩
  | .hbm, ⟨58, _⟩ => ⟨S1x2048, .f32⟩
  | .hbm, ⟨59, _⟩ => ⟨S8192x2048, .f32⟩
  | .hbm, ⟨60, _⟩ => ⟨S8192x2048, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S8192x2048, .f32⟩
  | .hbm, ⟨65, _⟩ => ⟨S8192x2048, .f32⟩
  | .hbm, ⟨66, _⟩ => ⟨S_, .f32⟩
  | .hbm, ⟨67, _⟩ => ⟨S8192x2048, .f32⟩
  | .hbm, ⟨68, _⟩ => ⟨S8192x2048, .f32⟩
  | .hbm, ⟨69, _⟩ => ⟨S_, .f32⟩
  | .hbm, ⟨70, _⟩ => ⟨S8192x2048, .f32⟩
  | .hbm, ⟨71, _⟩ => ⟨S8192x2048, .f32⟩
  | .hbm, ⟨72, _⟩ => ⟨S8192x2048, .f32⟩
  | .hbm, ⟨73, _⟩ => ⟨S_, .f32⟩
  | .hbm, ⟨74, _⟩ => ⟨S8192x2048, .f32⟩
  | .hbm, ⟨75, _⟩ => ⟨S8192x2048, .f32⟩
  | .hbm, ⟨76, _⟩ => ⟨S8192x2048, .f32⟩
  | .hbm, ⟨77, _⟩ => ⟨S8192x2048, .f32⟩
  | .hbm, ⟨78, _⟩ => ⟨S_, .f32⟩
  | .hbm, ⟨79, _⟩ => ⟨S2048, .f32⟩
  | .hbm, ⟨80, _⟩ => ⟨S_, .f32⟩
  | .hbm, ⟨81, _⟩ => ⟨S2048, .f32⟩
  | .hbm, ⟨82, _⟩ => ⟨S2048, .f32⟩
  | .hbm, ⟨83, _⟩ => ⟨S1x2048, .f32⟩
  | .hbm, ⟨84, _⟩ => ⟨S8192x2048, .f32⟩
  | .hbm, ⟨85, _⟩ => ⟨S8192x2048, .f32⟩
  | .hbm, ⟨86, _⟩ => ⟨S8192x2048, .f32⟩
  | .hbm, ⟨87, _⟩ => ⟨S_, .f32⟩
  | .hbm, ⟨88, _⟩ => ⟨S2048, .f32⟩
  | .hbm, ⟨89, _⟩ => ⟨S_, .f32⟩
  | .hbm, ⟨90, _⟩ => ⟨S2048, .f32⟩
  | .hbm, ⟨91, _⟩ => ⟨S2048, .f32⟩
  | .hbm, ⟨92, _⟩ => ⟨S1x2048, .f32⟩
  | .hbm, ⟨93, _⟩ => ⟨S8192x2048, .f32⟩
  | .hbm, ⟨94, _⟩ => ⟨S8192x2048, .f32⟩
  | .hbm, ⟨95, _⟩ => ⟨S_, .f32⟩
  | .hbm, ⟨96, _⟩ => ⟨S2048, .f32⟩
  | .hbm, ⟨97, _⟩ => ⟨S2048, .f32⟩
  | .hbm, ⟨98, _⟩ => ⟨S2048, .f32⟩
  | .hbm, ⟨99, _⟩ => ⟨S1x2048, .f32⟩
  | .hbm, ⟨100, _⟩ => ⟨S8192x2048, .f32⟩
  | .hbm, ⟨101, _⟩ => ⟨S8192x2048, .f32⟩
  | .hbm, ⟨102, _⟩ => ⟨S1x2048, .f32⟩
  | .hbm, ⟨103, _⟩ => ⟨S8192x2048, .f32⟩
  | .hbm, ⟨104, _⟩ => ⟨S8192x2048, .f32⟩
  | .hbm, ⟨105, _⟩ => ⟨S1x2048, .f32⟩
  | .hbm, ⟨106, _⟩ => ⟨S8192x2048, .f32⟩
  | .hbm, ⟨107, _⟩ => ⟨S8192x2048, .f32⟩
  | .hbm, ⟨108, _⟩ => ⟨S_, .f32⟩
  | .hbm, ⟨109, _⟩ => ⟨S_, .f32⟩
  | .hbm, ⟨110, _⟩ => ⟨S_, .f32⟩
  | .hbm, ⟨111, _⟩ => ⟨S8192x2048, .f32⟩
  | .hbm, ⟨112, _⟩ => ⟨S8192x2048, .f32⟩
  | .hbm, ⟨113, _⟩ => ⟨S_, .f32⟩
  | .hbm, ⟨114, _⟩ => ⟨S8192x2048, .f32⟩
  | .hbm, ⟨115, _⟩ => ⟨S8192x2048, .f32⟩
  | .hbm, ⟨116, _⟩ => ⟨S_, .f32⟩
  | .hbm, ⟨117, _⟩ => ⟨S8192x2048, .f32⟩
  | .hbm, ⟨118, _⟩ => ⟨S8192x2048, .f32⟩
  | .hbm, ⟨119, _⟩ => ⟨S8192x2048, .f32⟩
  | .hbm, ⟨120, _⟩ => ⟨S_, .f32⟩
  | .hbm, ⟨121, _⟩ => ⟨S8192x2048, .f32⟩
  | .hbm, ⟨122, _⟩ => ⟨S8192x2048, .f32⟩
  | .hbm, ⟨123, _⟩ => ⟨S8192x2048, .f32⟩
  | .hbm, ⟨124, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_cst_0 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_v0 : Ref sig .tc := ⟨.hbm, 12, rfl⟩
abbrev main_cst_1 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst_2 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_3 : Ref sig .tc := ⟨.hbm, 22, rfl⟩
abbrev main_cst_4 : Ref sig .tc := ⟨.hbm, 23, rfl⟩
abbrev main_call2_v0 : Ref sig .tc := ⟨.hbm, 24, rfl⟩
abbrev main_call2_v1 : Ref sig .tc := ⟨.hbm, 25, rfl⟩
abbrev main_call2_v2 : Ref sig .tc := ⟨.hbm, 26, rfl⟩
abbrev main_call2_v3 : Ref sig .tc := ⟨.hbm, 27, rfl⟩
abbrev main_call2_v4 : Ref sig .tc := ⟨.hbm, 28, rfl⟩
abbrev main_v8 : Ref sig .tc := ⟨.hbm, 29, rfl⟩
abbrev main_cst_5 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_cst_6 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_cst_7 : Ref sig .tc := ⟨.hbm, 41, rfl⟩
abbrev main_cst_8 : Ref sig .tc := ⟨.hbm, 42, rfl⟩
abbrev main_call4_v0 : Ref sig .tc := ⟨.hbm, 43, rfl⟩
abbrev main_call4_v1 : Ref sig .tc := ⟨.hbm, 44, rfl⟩
abbrev main_call4_v2 : Ref sig .tc := ⟨.hbm, 45, rfl⟩
abbrev main_call4_v3 : Ref sig .tc := ⟨.hbm, 46, rfl⟩
abbrev main_call4_v4 : Ref sig .tc := ⟨.hbm, 47, rfl⟩
abbrev main_v18 : Ref sig .tc := ⟨.hbm, 48, rfl⟩
abbrev main_cst_9 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_cst_10 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_cst_11 : Ref sig .tc := ⟨.hbm, 61, rfl⟩
abbrev main_cst_12 : Ref sig .tc := ⟨.hbm, 62, rfl⟩
abbrev main_call6_v0 : Ref sig .tc := ⟨.hbm, 63, rfl⟩
abbrev main_call6_v1 : Ref sig .tc := ⟨.hbm, 64, rfl⟩
abbrev main_call6_v2 : Ref sig .tc := ⟨.hbm, 65, rfl⟩
abbrev main_call6_v3 : Ref sig .tc := ⟨.hbm, 66, rfl⟩
abbrev main_call6_v4 : Ref sig .tc := ⟨.hbm, 67, rfl⟩
abbrev main_v29 : Ref sig .tc := ⟨.hbm, 68, rfl⟩
abbrev main_cst_13 : Ref sig .tc := ⟨.hbm, 69, rfl⟩
abbrev main_v30 : Ref sig .tc := ⟨.hbm, 70, rfl⟩
abbrev main_v31 : Ref sig .tc := ⟨.hbm, 71, rfl⟩
abbrev main_v32 : Ref sig .tc := ⟨.hbm, 72, rfl⟩
abbrev main_cst_14 : Ref sig .tc := ⟨.hbm, 73, rfl⟩
abbrev main_v33 : Ref sig .tc := ⟨.hbm, 74, rfl⟩
abbrev main_v34 : Ref sig .tc := ⟨.hbm, 75, rfl⟩
abbrev main_v35 : Ref sig .tc := ⟨.hbm, 76, rfl⟩
abbrev main_v36 : Ref sig .tc := ⟨.hbm, 77, rfl⟩
abbrev main_cst_15 : Ref sig .tc := ⟨.hbm, 78, rfl⟩
abbrev main_v37 : Ref sig .tc := ⟨.hbm, 79, rfl⟩
abbrev main_cst_16 : Ref sig .tc := ⟨.hbm, 80, rfl⟩
abbrev main_v38 : Ref sig .tc := ⟨.hbm, 81, rfl⟩
abbrev main_v39 : Ref sig .tc := ⟨.hbm, 82, rfl⟩
abbrev main_v40 : Ref sig .tc := ⟨.hbm, 83, rfl⟩
abbrev main_v41 : Ref sig .tc := ⟨.hbm, 84, rfl⟩
abbrev main_v42 : Ref sig .tc := ⟨.hbm, 85, rfl⟩
abbrev main_v43 : Ref sig .tc := ⟨.hbm, 86, rfl⟩
abbrev main_cst_17 : Ref sig .tc := ⟨.hbm, 87, rfl⟩
abbrev main_v44 : Ref sig .tc := ⟨.hbm, 88, rfl⟩
abbrev main_cst_18 : Ref sig .tc := ⟨.hbm, 89, rfl⟩
abbrev main_v45 : Ref sig .tc := ⟨.hbm, 90, rfl⟩
abbrev main_v46 : Ref sig .tc := ⟨.hbm, 91, rfl⟩
abbrev main_v47 : Ref sig .tc := ⟨.hbm, 92, rfl⟩
abbrev main_v48 : Ref sig .tc := ⟨.hbm, 93, rfl⟩
abbrev main_v49 : Ref sig .tc := ⟨.hbm, 94, rfl⟩
abbrev main_cst_19 : Ref sig .tc := ⟨.hbm, 95, rfl⟩
abbrev main_v50 : Ref sig .tc := ⟨.hbm, 96, rfl⟩
abbrev main_v51 : Ref sig .tc := ⟨.hbm, 97, rfl⟩
abbrev main_v52 : Ref sig .tc := ⟨.hbm, 98, rfl⟩
abbrev main_v53 : Ref sig .tc := ⟨.hbm, 99, rfl⟩
abbrev main_v54 : Ref sig .tc := ⟨.hbm, 100, rfl⟩
abbrev main_v55 : Ref sig .tc := ⟨.hbm, 101, rfl⟩
abbrev main_v56 : Ref sig .tc := ⟨.hbm, 102, rfl⟩
abbrev main_v57 : Ref sig .tc := ⟨.hbm, 103, rfl⟩
abbrev main_v58 : Ref sig .tc := ⟨.hbm, 104, rfl⟩
abbrev main_v59 : Ref sig .tc := ⟨.hbm, 105, rfl⟩
abbrev main_v60 : Ref sig .tc := ⟨.hbm, 106, rfl⟩
abbrev main_v61 : Ref sig .tc := ⟨.hbm, 107, rfl⟩
abbrev main_cst_20 : Ref sig .tc := ⟨.hbm, 108, rfl⟩
abbrev main_cst_21 : Ref sig .tc := ⟨.hbm, 109, rfl⟩
abbrev main_call8_v0 : Ref sig .tc := ⟨.hbm, 110, rfl⟩
abbrev main_call8_v1 : Ref sig .tc := ⟨.hbm, 111, rfl⟩
abbrev main_call8_v2 : Ref sig .tc := ⟨.hbm, 112, rfl⟩
abbrev main_call8_v3 : Ref sig .tc := ⟨.hbm, 113, rfl⟩
abbrev main_call8_v4 : Ref sig .tc := ⟨.hbm, 114, rfl⟩
abbrev main_v62 : Ref sig .tc := ⟨.hbm, 115, rfl⟩
abbrev main_cst_22 : Ref sig .tc := ⟨.hbm, 116, rfl⟩
abbrev main_v63 : Ref sig .tc := ⟨.hbm, 117, rfl⟩
abbrev main_v64 : Ref sig .tc := ⟨.hbm, 118, rfl⟩
abbrev main_v65 : Ref sig .tc := ⟨.hbm, 119, rfl⟩
abbrev main_cst_23 : Ref sig .tc := ⟨.hbm, 120, rfl⟩
abbrev main_v66 : Ref sig .tc := ⟨.hbm, 121, rfl⟩
abbrev main_v67 : Ref sig .tc := ⟨.hbm, 122, rfl⟩
abbrev main_v68 : Ref sig .tc := ⟨.hbm, 123, rfl⟩
abbrev main_v69 : Ref sig .tc := ⟨.hbm, 124, rfl⟩

abbrev nD : Nat := 1
abbrev τ : Topo := Topo.v7x

variable {F : FTy → Type} [FloatOps F]

class Facts₀ : Prop where
  bcast_S_S2048x2048 : S_.BroadcastsInDim S2048x2048 (![] : Fin 0 → Fin S2048x2048.rank)
  bcast_S_S2048 : S_.BroadcastsInDim S2048 (![] : Fin 0 → Fin S2048.rank)
  transposes_S2048x2048_S2048x2048_1_0 : S2048x2048.Transposes [1, 0] S2048x2048
  bcast_S_S8192x2048 : S_.BroadcastsInDim S8192x2048 (![] : Fin 0 → Fin S8192x2048.rank)
  bcast_S2048_S1x2048_1 : S2048.BroadcastsInDim S1x2048 (![1] : Fin 1 → Fin S1x2048.rank)
  bcast_S1x2048_S8192x2048_0_1 : S1x2048.BroadcastsInDim S8192x2048 (![0, 1] : Fin 2 → Fin S8192x2048.rank)
  reducesTo_S8192x2048_S2048_d0 : S8192x2048.ReducesTo [0] S2048
  h_S_ : 0 < S_.numel
  dot_S8192x2048_S2048x2048_S8192x2048_1_0_0_1_n_n_wf : DotDims.WF S8192x2048 S2048x2048 S8192x2048 [1] [0] [0] [1] [] []

variable [Facts₀]

def dot_S8192x2048_S2048x2048_S8192x2048_1_0_0_1_n_n : DotDims S8192x2048 S2048x2048 S8192x2048 where
  lhsContracting := [1]
  rhsContracting := [0]
  lhsNonContracting := [0]
  rhsNonContracting := [1]
  lhsBatch := []
  rhsBatch := []
  wf := dot_S8192x2048_S2048x2048_S8192x2048_1_0_0_1_n_n_wf

class Facts : Prop extends Facts₀ where

variable [Facts]
-- ==== Proof.SameProgram.lean ====
import proofs.«128430_j57578331570847_1_alg».proof.Proof.Gen.Kernel.Launch
import proofs.«128430_j57578331570847_1_alg».proof.Proof.Gen.KernelIdeal.Launch
import Idealize.ShloMosaic.PureOps.BitExact

noncomputable section

namespace Cert.SameProgram

open Idealize.ShloMosaic

/-- No rewrite was applied when the idealized kernel was printed: label by label the two body tables are one text. -/
theorem defs₀_eq : Cert.Kernel.defs₀ (F := Bits) = Cert.KernelIdeal.defs₀ (F := Bits) :=
  congrArg Defs.onTc (funext fun l => funext fun a => match l, a with
    | 0, (t, s) => rfl | 1, (t, s) => rfl | 2, (t, s) => rfl
    | ⟨_ + 3, h⟩, _ => absurd h (Nat.not_lt.2 (Nat.le_add_left _ _)))

theorem defs_eq : Cert.Kernel.defs (F := Bits) = Cert.KernelIdeal.defs (F := Bits) :=
  congrArg (Pipeline.defs Cert.KernelIdeal.pcfgs) defs₀_eq

/-- Both entry points are the same chain of host stretches and region calls. -/
theorem main_eq : Cert.Kernel.main (F := Bits) = Cert.KernelIdeal.main (F := Bits) := funext fun c => by
  rw [Cert.Kernel.Gen.main_chain, Cert.KernelIdeal.Gen.main_chain]; rfl

end Cert.SameProgram

end
-- ==== Proof.KernelIdeal.R0Runs.lean ====
import proofs.«128430_j57578331570847_1_alg».proof.Proof.Gen.KernelIdeal.Launch
import proofs.«128430_j57578331570847_1_alg».proof.Proof.Gen.KernelIdeal.Skeleton
import proofs.«128430_j57578331570847_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

abbrev cond0_0 (i : grid0.Coords) : Prop := (Scalar.cmpi .ne (Scalar.extui (Scalar.cmpi .eq (BitVec.ofNat 32 (i 1).val) 0#32)) 0#32) = 1#1

theorem hcond0_0 : ∀ t : Fin cfg0.N, cond0_0 (grid0.coords t) ↔ t.val % 4 = 0 :=
  (by decide +kernel : ∀ t : Fin grid0.N, cond0_0 (grid0.coords t) ↔ t.val % 4 = 0)

abbrev cond0_1 (i : grid0.Coords) : Prop := k0_cond2 i = 1#1

theorem hcond0_1 : ∀ t : Fin cfg0.N, cond0_1 (grid0.coords t) ↔ t.val % 4 = 3 :=
  (by decide +kernel : ∀ t : Fin grid0.N, cond0_1 (grid0.coords t) ↔ t.val % 4 = 3)

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel

theorem idleAt0_3_A : ∀ t : Fin cfg0.N, cond0_0 (grid0.coords t) → ¬cond0_1 (grid0.coords t) → cfg0.idle 3 (grid0.coords t) = true := by decide +kernel

theorem noFlush0_3_A : ∀ t : Fin cfg0.N, cond0_0 (grid0.coords t) → ¬cond0_1 (grid0.coords t) → (cfg0.win 3).flush t = false := by decide +kernel

theorem idleAt0_3_B : ∀ t : Fin cfg0.N, ¬cond0_0 (grid0.coords t) → ¬cond0_1 (grid0.coords t) → cfg0.idle 3 (grid0.coords t) = true := by decide +kernel
theorem noFlush0_3_B : ∀ t : Fin cfg0.N, ¬cond0_0 (grid0.coords t) → ¬cond0_1 (grid0.coords t) → (cfg0.win 3).flush t = false := by decide +kernel

theorem liveAt0_3_C : ∀ t : Fin cfg0.N, ¬cond0_0 (grid0.coords t) → cond0_1 (grid0.coords t) → cfg0.idle 3 (grid0.coords t) = false := by decide +kernel

abbrev VO0_3 : View sig .tc .vmem S512x2048 .f32 := (Memref.whole cc0_stg3_0 : Memref sig .tc .vmem S512x2048 .f32).view

abbrev ms0_0 (t : Fin cfg0.N) : Memref sig .tc .vmem S512x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x2048 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x2048 .f32 := win0_3.stage (cfg0.slots t 3)
abbrev hs0_3 (t : Fin cfg0.N) : (ms0_3 t).IsWhole := hstage0_3 ((cfg0.slots t 3).cast nbuf0_3)

abbrev scM0_0 : Memref sig .tc .vmem S512x2048 .f32 := Memref.whole cc0_scratch0

abbrev VS0_0 : View sig .tc .vmem S512x2048 .f32 := scM0_0.view

def rest0 (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_scratch0), ((c : Thread nD τ).loc cc1_scratch0) ↦{fullShare} f)
    ∗ (∃ f : Buf (Elt F) ((c : Thread nD τ).loc cc1_scratch1), ((c : Thread nD τ).loc cc1_scratch1) ↦{fullShare} f)
    ∗ (∃ f : Buf (Elt F) ((c : Thread nD τ).loc cc2_stg0_0), ((c : Thread nD τ).loc cc2_stg0_0) ↦{fullShare} f)
    ∗ (∃ f : Buf (Elt F) ((c : Thread nD τ).loc cc2_stg0_1), ((c : Thread nD τ).loc cc2_stg0_1) ↦{fullShare} f)
    ∗ (∃ f : Buf (Elt F) ((c : Thread nD τ).loc cc2_stg1_0), ((c : Thread nD τ).loc cc2_stg1_0) ↦{fullShare} f)
    ∗ (∃ f : Buf (Elt F) ((c : Thread nD τ).loc cc2_stg2_0), ((c : Thread nD τ).loc cc2_stg2_0) ↦{fullShare} f)
    ∗ (∃ f : Buf (Elt F) ((c : Thread nD τ).loc cc2_stg3_0), ((c : Thread nD τ).loc cc2_stg3_0) ↦{fullShare} f)
    ∗ (∃ f : Buf (Elt F) ((c : Thread nD τ).loc cc2_stg4_0), ((c : Thread nD τ).loc cc2_stg4_0) ↦{fullShare} f)
    ∗ (∃ f : Buf (Elt F) ((c : Thread nD τ).loc cc2_stg5_0), ((c : Thread nD τ).loc cc2_stg5_0) ↦{fullShare} f)
    ∗ (∃ f : Buf (Elt F) ((c : Thread nD τ).loc cc2_stg5_1), ((c : Thread nD τ).loc cc2_stg5_1) ↦{fullShare} f))

theorem PhiA0_eq (c : Dev nD) :
    (Pipeline.ΦA spec0 c : sProp 𝕄)
      = iprop(iprop((∃ d, owns (c : Thread nD τ) scM0_0 fullShare d) ∗ rest0 c) ∗ (∃ r, prngReg c r)) := by
  unfold Pipeline.ΦA rest0; rw [scopedRest0_eq]; simp only [scM0_0, owns_whole]; try rfl

end Cert.KernelIdeal.Hand

end
-- ==== Proof.KernelIdeal.R0RunA.lean ====
import proofs.«128430_j57578331570847_1_alg».proof.Proof.KernelIdeal.R0Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in

noncomputable def kernelRun0_A (c : Dev nD) (i : grid0.Coords) (arg2 : Memref sig .tc .vmem S512x512 .f32) (harg2 : arg2.IsWhole) (arg3 : Memref sig .tc .vmem S2048x512 .f32) (harg3 : arg3.IsWhole) (arg4 : Memref sig .tc .vmem S1x2048 .f32) (harg4 : arg4.IsWhole) (arg5 : Memref sig .tc .vmem S512x2048 .f32) (harg5 : arg5.IsWhole) (arg6 : Memref sig .tc .vmem S512x2048 .f32) (harg6 : arg6.IsWhole) (hc0 : cond0_0 i) (hc1 : ¬cond0_1 i)
    (x0 : Vec F S512x512 .f32) (x1 : Vec F S2048x512 .f32) (x2 : Vec F S1x2048 .f32) :
    Σ' (L3 : List (View.Piece (Elt F) S512x2048 .f32)), { LS0 : List (View.Piece (Elt F) S512x2048 .f32) //
      ∀ (xi3 : Vec F S512x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__matmul_quant_kernel i arg2 harg2 arg3 harg3 arg4 harg4 arg5 harg5 arg6 harg6) K } := by
  refine ⟨[], ?_, fun xi3 E K => ?run⟩
  case run =>
    simp only [cc0__matmul_quant_kernel_eq_skeleton]; unfold cc0__matmul_quant_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Hand

end
-- ==== Proof.KernelIdeal.R0RunB.lean ====
import proofs.«128430_j57578331570847_1_alg».proof.Proof.KernelIdeal.R0RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in

noncomputable def kernelRun0_B (c : Dev nD) (i : grid0.Coords) (arg2 : Memref sig .tc .vmem S512x512 .f32) (harg2 : arg2.IsWhole) (arg3 : Memref sig .tc .vmem S2048x512 .f32) (harg3 : arg3.IsWhole) (arg4 : Memref sig .tc .vmem S1x2048 .f32) (harg4 : arg4.IsWhole) (arg5 : Memref sig .tc .vmem S512x2048 .f32) (harg5 : arg5.IsWhole) (arg6 : Memref sig .tc .vmem S512x2048 .f32) (harg6 : arg6.IsWhole) (hc0 : ¬cond0_0 i) (hc1 : ¬cond0_1 i)
    (x0 : Vec F S512x512 .f32) (x1 : Vec F S2048x512 .f32) (x2 : Vec F S1x2048 .f32) (xs0 : Vec F S512x2048 .f32) :
    Σ' (L3 : List (View.Piece (Elt F) S512x2048 .f32)), { LS0 : List (View.Piece (Elt F) S512x2048 .f32) //
      ∀ (xi3 : Vec F S512x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__matmul_quant_kernel i arg2 harg2 arg3 harg3 arg4 harg4 arg5 harg5 arg6 harg6) K } := by
  refine ⟨[], ?_, fun xi3 E K => ?run⟩
  case run =>
    simp only [cc0__matmul_quant_kernel_eq_skeleton]; unfold cc0__matmul_quant_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Hand

end
-- ==== Proof.KernelIdeal.R0RunC.lean ====
import proofs.«128430_j57578331570847_1_alg».proof.Proof.KernelIdeal.R0RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in

noncomputable def kernelRun0_C (c : Dev nD) (i : grid0.Coords) (arg2 : Memref sig .tc .vmem S512x512 .f32) (harg2 : arg2.IsWhole) (arg3 : Memref sig .tc .vmem S2048x512 .f32) (harg3 : arg3.IsWhole) (arg4 : Memref sig .tc .vmem S1x2048 .f32) (harg4 : arg4.IsWhole) (arg5 : Memref sig .tc .vmem S512x2048 .f32) (harg5 : arg5.IsWhole) (arg6 : Memref sig .tc .vmem S512x2048 .f32) (harg6 : arg6.IsWhole) (hc0 : ¬cond0_0 i) (hc1 : cond0_1 i)
    (x0 : Vec F S512x512 .f32) (x1 : Vec F S2048x512 .f32) (x2 : Vec F S1x2048 .f32) (xs0 : Vec F S512x2048 .f32) :
    Σ' (L3 : List (View.Piece (Elt F) S512x2048 .f32)), { LS0 : List (View.Piece (Elt F) S512x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc0__matmul_quant_kernel i arg2 harg2 arg3 harg3 arg4 harg4 arg5 harg5 arg6 harg6) K } := by
  refine ⟨?_, ?_, fun E K => ?run⟩
  case run =>
    simp only [cc0__matmul_quant_kernel_eq_skeleton]; unfold cc0__matmul_quant_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Hand

end
-- ==== Proof.KernelIdeal.R0Frame.lean ====
import proofs.«128430_j57578331570847_1_alg».proof.Proof.KernelIdeal.R0RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

section Pieces
variable (c : Dev nD) (i : grid0.Coords) (arg2 : Memref sig .tc .vmem S512x512 .f32) (harg2 : arg2.IsWhole) (arg3 : Memref sig .tc .vmem S2048x512 .f32) (harg3 : arg3.IsWhole) (arg4 : Memref sig .tc .vmem S1x2048 .f32) (harg4 : arg4.IsWhole) (arg5 : Memref sig .tc .vmem S512x2048 .f32) (harg5 : arg5.IsWhole) (arg6 : Memref sig .tc .vmem S512x2048 .f32) (harg6 : arg6.IsWhole)

def out0_A_3 (hc0 : cond0_0 i) (hc1 : ¬cond0_1 i)
    (x0 : Vec F S512x512 .f32) (x1 : Vec F S2048x512 .f32) (x2 : Vec F S1x2048 .f32) : Vec F S512x2048 .f32 :=
  VO0_3.read (Elt F) (VO0_3.writes (Elt F) VO0_3.junk (kernelRun0_A c i arg2 harg2 arg3 harg3 arg4 harg4 arg5 harg5 arg6 harg6 hc0 hc1 x0 x1 x2).1)

theorem scover0_A_0 (hc0 : cond0_0 i) (hc1 : ¬cond0_1 i)
    (x0 : Vec F S512x512 .f32) (x1 : Vec F S2048x512 .f32) (x2 : Vec F S1x2048 .f32) (y : S512x2048.Idx) :
    ∃ pc ∈ (kernelRun0_A c i arg2 harg2 arg3 harg3 arg4 harg4 arg5 harg5 arg6 harg6 hc0 hc1 x0 x1 x2).2.1, y ∈ pc.1.set :=
  View.cover_of_tiledL (kernelRun0_A c i arg2 harg2 arg3 harg3 arg4 harg4 arg5 harg5 arg6 harg6 hc0 hc1 x0 x1 x2).2.1 S512x2048.size (by sl_kernel_rfl) y

def sout0_A_0 (hc0 : cond0_0 i) (hc1 : ¬cond0_1 i)
    (x0 : Vec F S512x512 .f32) (x1 : Vec F S2048x512 .f32) (x2 : Vec F S1x2048 .f32) : Vec F S512x2048 .f32 :=
  VS0_0.read (Elt F) (VS0_0.writes (Elt F) VS0_0.junk (kernelRun0_A c i arg2 harg2 arg3 harg3 arg4 harg4 arg5 harg5 arg6 harg6 hc0 hc1 x0 x1 x2).2.1)

def out0_B_3 (hc0 : ¬cond0_0 i) (hc1 : ¬cond0_1 i)
    (x0 : Vec F S512x512 .f32) (x1 : Vec F S2048x512 .f32) (x2 : Vec F S1x2048 .f32) (xs0 : Vec F S512x2048 .f32) : Vec F S512x2048 .f32 :=
  VO0_3.read (Elt F) (VO0_3.writes (Elt F) VO0_3.junk (kernelRun0_B c i arg2 harg2 arg3 harg3 arg4 harg4 arg5 harg5 arg6 harg6 hc0 hc1 x0 x1 x2 xs0).1)

theorem scover0_B_0 (hc0 : ¬cond0_0 i) (hc1 : ¬cond0_1 i)
    (x0 : Vec F S512x512 .f32) (x1 : Vec F S2048x512 .f32) (x2 : Vec F S1x2048 .f32) (xs0 : Vec F S512x2048 .f32) (y : S512x2048.Idx) :
    ∃ pc ∈ (kernelRun0_B c i arg2 harg2 arg3 harg3 arg4 harg4 arg5 harg5 arg6 harg6 hc0 hc1 x0 x1 x2 xs0).2.1, y ∈ pc.1.set :=
  View.cover_of_tiledL (kernelRun0_B c i arg2 harg2 arg3 harg3 arg4 harg4 arg5 harg5 arg6 harg6 hc0 hc1 x0 x1 x2 xs0).2.1 S512x2048.size (by sl_kernel_rfl) y

def sout0_B_0 (hc0 : ¬cond0_0 i) (hc1 : ¬cond0_1 i)
    (x0 : Vec F S512x512 .f32) (x1 : Vec F S2048x512 .f32) (x2 : Vec F S1x2048 .f32) (xs0 : Vec F S512x2048 .f32) : Vec F S512x2048 .f32 :=
  VS0_0.read (Elt F) (VS0_0.writes (Elt F) VS0_0.junk (kernelRun0_B c i arg2 harg2 arg3 harg3 arg4 harg4 arg5 harg5 arg6 harg6 hc0 hc1 x0 x1 x2 xs0).2.1)

theorem cover0_C_3 (hc0 : ¬cond0_0 i) (hc1 : cond0_1 i)
    (x0 : Vec F S512x512 .f32) (x1 : Vec F S2048x512 .f32) (x2 : Vec F S1x2048 .f32) (xs0 : Vec F S512x2048 .f32) (y : S512x2048.Idx) :
    ∃ pc ∈ (kernelRun0_C c i arg2 harg2 arg3 harg3 arg4 harg4 arg5 harg5 arg6 harg6 hc0 hc1 x0 x1 x2 xs0).1, y ∈ pc.1.set :=
  View.cover_of_tiledL (kernelRun0_C c i arg2 harg2 arg3 harg3 arg4 harg4 arg5 harg5 arg6 harg6 hc0 hc1 x0 x1 x2 xs0).1 S512x2048.size (by sl_kernel_rfl) y

def out0_C_3 (hc0 : ¬cond0_0 i) (hc1 : cond0_1 i)
    (x0 : Vec F S512x512 .f32) (x1 : Vec F S2048x512 .f32) (x2 : Vec F S1x2048 .f32) (xs0 : Vec F S512x2048 .f32) : Vec F S512x2048 .f32 :=
  VO0_3.read (Elt F) (VO0_3.writes (Elt F) VO0_3.junk (kernelRun0_C c i arg2 harg2 arg3 harg3 arg4 harg4 arg5 harg5 arg6 harg6 hc0 hc1 x0 x1 x2 xs0).1)

theorem scover0_C_0 (hc0 : ¬cond0_0 i) (hc1 : cond0_1 i)
    (x0 : Vec F S512x512 .f32) (x1 : Vec F S2048x512 .f32) (x2 : Vec F S1x2048 .f32) (xs0 : Vec F S512x2048 .f32) (y : S512x2048.Idx) :
    ∃ pc ∈ (kernelRun0_C c i arg2 harg2 arg3 harg3 arg4 harg4 arg5 harg5 arg6 harg6 hc0 hc1 x0 x1 x2 xs0).2.1, y ∈ pc.1.set :=
  View.cover_of_tiledL (kernelRun0_C c i arg2 harg2 arg3 harg3 arg4 harg4 arg5 harg5 arg6 harg6 hc0 hc1 x0 x1 x2 xs0).2.1 S512x2048.size (by sl_kernel_rfl) y

def sout0_C_0 (hc0 : ¬cond0_0 i) (hc1 : cond0_1 i)
    (x0 : Vec F S512x512 .f32) (x1 : Vec F S2048x512 .f32) (x2 : Vec F S1x2048 .f32) (xs0 : Vec F S512x2048 .f32) : Vec F S512x2048 .f32 :=
  VS0_0.read (Elt F) (VS0_0.writes (Elt F) VS0_0.junk (kernelRun0_C c i arg2 harg2 arg3 harg3 arg4 harg4 arg5 harg5 arg6 harg6 hc0 hc1 x0 x1 x2 xs0).2.1)

end Pieces

def outsAt0 (c : Dev nD) : (n : ℕ) → n < cfg0.N → Vec F S512x2048 .f32 × Vec F S512x2048 .f32
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩))
  | n + 1, hn =>
    if h0 : (n + 1) % 4 = 0 then
      if h1 : (n + 1) % 4 = 3 then
        False.elim (by omega)
      else
        (out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩))
    else
      if h1 : (n + 1) % 4 = 3 then
        (out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2)
      else
        (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2)

theorem outsAt0_A (c : Dev nD) (t : Fin cfg0.N) (h0 : t.val % 4 = 0) (h1 : ¬t.val % 4 = 3) :
    outsAt0 V c t.val t.isLt = (out0_A_3 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk0 V c 0 t) (iblk0 V c 1 t) (iblk0 V c 2 t), sout0_A_0 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk0 V c 0 t) (iblk0 V c 1 t) (iblk0 V c 2 t)) := by
  obtain ⟨n, hn⟩ := t
  cases n with
  | zero => exact rfl
  | succ n => exact (dif_pos h0).trans ((dif_neg h1).trans rfl)

theorem outsAt0_B (c : Dev nD) (t : Fin cfg0.N) (h0 : ¬t.val % 4 = 0) (h1 : ¬t.val % 4 = 3) :
    outsAt0 V c t.val t.isLt = (out0_B_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 4 = 0) (h1 : t.val % 4 = 3) :
    outsAt0 V c t.val t.isLt = (out0_C_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ rest0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0_0 fullShare ((outsAt0 V c n hn).2) ∗ rest0 c) ∗ (∃ r, prngReg c r)) := rfl

theorem PhiS0_pos (c : Dev nD) (n : ℕ) (h : n ≤ cfg0.N) (hz : n ≠ 0) :
    PhiS0 V c n h = iprop(iprop(owns (c : Thread nD τ) scM0_0 fullShare ((outsAt0 V c (n - 1) (by omega)).2) ∗ rest0 c) ∗ (∃ r, prngReg c r)) := by
  cases n with
  | zero => exact absurd rfl hz
  | succ n => rfl

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  have hN : t.val < 64 := lt_of_lt_of_eq t.isLt (show cfg0.N = 64 from N_0)
  by_cases h0 : t.val % 4 = 0
  · by_cases h1 : t.val % 4 = 3
    · exfalso; omega
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [Dat.leavesExact_idle (dat0 V c) 3 t (idleAt0_3_A t ((hcond0_0 t).mpr h0) (fun h => h1 ((hcond0_1 t).mp h))) (noFlush0_3_A t ((hcond0_0 t).mpr h0) (fun h => h1 ((hcond0_1 t).mp h)))]
      rw [outsAt0_A V c t h0 h1]
      unfold sout0_A_0; (try dsimp only)
      by_cases hz : t.val = 0
      · rw [PhiS0_castSucc V c t, PhiS0_zero V c _ _ hz, PhiA0_eq]
        iintro ⟨⟨⟨HS0, Hr⟩, Hg⟩, Ho, ⟨%d0, H0⟩, ⟨%d1, H1⟩, ⟨%d2, H2⟩, ⟨%d3, H3⟩⟩
        iapply ((kernelRun0_A c (grid0.coords t) _ _ _ _ _ _ _ _ _ _ ((hcond0_0 t).mpr h0) (fun h => h1 ((hcond0_1 t).mp h)) (iblk0 V c 0 t) (iblk0 V c 1 t) (iblk0 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover0_A_0 c _ _ _ _ _ _ _ _ _ _ _ _ _ _ _ _)
            iexact Hr
          iexact Hg
        isplitl [Ho]; · iexact Ho
        isplitl [H0]; · iexact H0
        isplitl [H1]; · iexact H1
        isplitl [H2]; · iexact H2
        iexists _; iexact H3
      · rw [PhiS0_castSucc V c t, PhiS0_pos V c _ _ hz]
        iintro ⟨⟨⟨HS0, Hr⟩, Hg⟩, Ho, ⟨%d0, H0⟩, ⟨%d1, H1⟩, ⟨%d2, H2⟩, ⟨%d3, H3⟩⟩
        iapply ((kernelRun0_A c (grid0.coords t) _ _ _ _ _ _ _ _ _ _ ((hcond0_0 t).mpr h0) (fun h => h1 ((hcond0_1 t).mp h)) (iblk0 V c 0 t) (iblk0 V c 1 t) (iblk0 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover0_A_0 c _ _ _ _ _ _ _ _ _ _ _ _ _ _ _ _)
            iexact Hr
          iexact Hg
        isplitl [Ho]; · iexact Ho
        isplitl [H0]; · iexact H0
        isplitl [H1]; · iexact H1
        isplitl [H2]; · iexact H2
        iexists _; iexact H3
  · by_cases h1 : t.val % 4 = 3
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3_C t (fun h => h0 ((hcond0_0 t).mp h)) ((hcond0_1 t).mpr h1)], after0_3]
      rw [outsAt0_C V c t h0 h1]
      unfold out0_C_3 sout0_C_0; (try dsimp only)
      by_cases hz : t.val = 0
      · exfalso; omega
      · rw [PhiS0_castSucc V c t, PhiS0_pos V c _ _ hz]
        iintro ⟨⟨⟨HS0, Hr⟩, Hg⟩, Ho, ⟨%d0, H0⟩, ⟨%d1, H1⟩, ⟨%d2, H2⟩, ⟨%d3, H3⟩⟩
        iapply ((kernelRun0_C c (grid0.coords t) _ _ _ _ _ _ _ _ _ _ (fun h => h0 ((hcond0_0 t).mp h)) ((hcond0_1 t).mpr h1) (iblk0 V c 0 t) (iblk0 V c 1 t) (iblk0 V c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover0_C_0 c _ _ _ _ _ _ _ _ _ _ _ _ _ _ _ _ _)
            iexact Hr
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover0_C_3 c _ _ _ _ _ _ _ _ _ _ _ _ _ _ _ _ _)
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [Dat.leavesExact_idle (dat0 V c) 3 t (idleAt0_3_B t (fun h => h0 ((hcond0_0 t).mp h)) (fun h => h1 ((hcond0_1 t).mp h))) (noFlush0_3_B t (fun h => h0 ((hcond0_0 t).mp h)) (fun h => h1 ((hcond0_1 t).mp h)))]
      rw [outsAt0_B V c t h0 h1]
      unfold sout0_B_0; (try dsimp only)
      by_cases hz : t.val = 0
      · exfalso; omega
      · rw [PhiS0_castSucc V c t, PhiS0_pos V c _ _ hz]
        iintro ⟨⟨⟨HS0, Hr⟩, Hg⟩, Ho, ⟨%d0, H0⟩, ⟨%d1, H1⟩, ⟨%d2, H2⟩, ⟨%d3, H3⟩⟩
        iapply ((kernelRun0_B c (grid0.coords t) _ _ _ _ _ _ _ _ _ _ (fun h => h0 ((hcond0_0 t).mp h)) (fun h => h1 ((hcond0_1 t).mp h)) (iblk0 V c 0 t) (iblk0 V c 1 t) (iblk0 V c 2 t) _).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover0_B_0 c _ _ _ _ _ _ _ _ _ _ _ _ _ _ _ _ _)
            iexact Hr
          iexact Hg
        isplitl [Ho]; · iexact Ho
        isplitl [H0]; · iexact H0
        isplitl [H1]; · iexact H1
        isplitl [H2]; · iexact H2
        iexists _; iexact H3

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, Hr⟩, Hg⟩
  isplitl [HS0 Hr]
  · isplitl [HS0]
    · iexists _; iexact HS0
    iexact Hr
  iexact Hg

theorem hout0 (c : Dev nD) : (dat0 V c).Φ (Fin.last cfg0.N) ⊢ Pipeline.ΦA spec0 c :=
  Phi_out0 V c _ (by rw [Fin.val_last]; have : cfg0.N = 64 := N_0; omega)

end Cert.KernelIdeal.Hand

end
-- ==== Proof.KernelIdeal.R1Runs.lean ====
import proofs.«128430_j57578331570847_1_alg».proof.Proof.Gen.KernelIdeal.Launch
import proofs.«128430_j57578331570847_1_alg».proof.Proof.Gen.KernelIdeal.Skeleton
import proofs.«128430_j57578331570847_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

abbrev cond1_0 (i : grid1.Coords) : Prop := (Scalar.cmpi .ne (Scalar.extui (Scalar.cmpi .eq (BitVec.ofNat 32 (i 0).val) 0#32)) 0#32) = 1#1

theorem hcond1_0 : ∀ t : Fin cfg1.N, cond1_0 (grid1.coords t) ↔ t.val % 16 = 0 :=
  (by decide +kernel : ∀ t : Fin grid1.N, cond1_0 (grid1.coords t) ↔ t.val % 16 = 0)

abbrev cond1_1 (i : grid1.Coords) : Prop := k1_cond2 i = 1#1

theorem hcond1_1 : ∀ t : Fin cfg1.N, cond1_1 (grid1.coords t) ↔ t.val % 16 = 15 :=
  (by decide +kernel : ∀ t : Fin grid1.N, cond1_1 (grid1.coords t) ↔ t.val % 16 = 15)

theorem liveAt1_0 : ∀ t : Fin cfg1.N, cfg1.idle 0 (grid1.coords t) = false := by decide +kernel

theorem idleAt1_1 : ∀ t : Fin cfg1.N, ¬cond1_1 (grid1.coords t) → cfg1.idle 1 (grid1.coords t) = true := by decide +kernel
theorem noFlush1_1 : ∀ t : Fin cfg1.N, ¬cond1_1 (grid1.coords t) → (cfg1.win 1).flush t = false := by decide +kernel
theorem liveAt1_1 : ∀ t : Fin cfg1.N, cond1_1 (grid1.coords t) → cfg1.idle 1 (grid1.coords t) = false := by decide +kernel

theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
theorem liveAt1_2 : ∀ t : Fin cfg1.N, cond1_1 (grid1.coords t) → cfg1.idle 2 (grid1.coords t) = false := by decide +kernel

abbrev VO1_1 : View sig .tc .vmem S1x2048 .f32 := (Memref.whole cc1_stg1_0 : Memref sig .tc .vmem S1x2048 .f32).view
abbrev VO1_2 : View sig .tc .vmem S1x2048 .f32 := (Memref.whole cc1_stg2_0 : Memref sig .tc .vmem S1x2048 .f32).view

abbrev ms1_0 (t : Fin cfg1.N) : Memref sig .tc .vmem S512x2048 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x2048 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x2048 .f32 := win1_2.stage (cfg1.slots t 2)
abbrev hs1_2 (t : Fin cfg1.N) : (ms1_2 t).IsWhole := hstage1_2 ((cfg1.slots t 2).cast nbuf1_2)

abbrev scM1_0 : Memref sig .tc .vmem S1x2048 .f32 := Memref.whole cc1_scratch0
abbrev scM1_1 : Memref sig .tc .vmem S1x2048 .f32 := Memref.whole cc1_scratch1

abbrev VS1_0 : View sig .tc .vmem S1x2048 .f32 := scM1_0.view
abbrev VS1_1 : View sig .tc .vmem S1x2048 .f32 := scM1_1.view

abbrev anyAt (c : Dev nD) (b : Ref sig .tc) : sProp 𝕄 :=
  iprop(∃ f : Buf (Elt F) ((c : Thread nD τ).loc b), ((c : Thread nD τ).loc b) ↦{fullShare} f)

def scopedWith (c : Dev nD) (P0 P1 : sProp 𝕄) : sProp 𝕄 :=
  iprop(anyAt c cc0_stg0_0 ∗ anyAt c cc0_stg0_1 ∗ anyAt c cc0_stg1_0 ∗ anyAt c cc0_stg1_1 ∗ anyAt c cc0_stg2_0 ∗ anyAt c cc0_stg3_0 ∗ anyAt c cc0_stg3_1 ∗ anyAt c cc0_scratch0 ∗ P0 ∗ P1 ∗ anyAt c cc2_stg0_0 ∗ anyAt c cc2_stg0_1 ∗ anyAt c cc2_stg1_0 ∗ anyAt c cc2_stg2_0 ∗ anyAt c cc2_stg3_0 ∗ anyAt c cc2_stg4_0 ∗ anyAt c cc2_stg5_0 ∗ anyAt c cc2_stg5_1)

def otherScoped (c : Dev nD) : sProp 𝕄 :=
  iprop(anyAt c cc0_stg0_0 ∗ anyAt c cc0_stg0_1 ∗ anyAt c cc0_stg1_0 ∗ anyAt c cc0_stg1_1 ∗ anyAt c cc0_stg2_0 ∗ anyAt c cc0_stg3_0 ∗ anyAt c cc0_stg3_1 ∗ anyAt c cc0_scratch0 ∗ anyAt c cc2_stg0_0 ∗ anyAt c cc2_stg0_1 ∗ anyAt c cc2_stg1_0 ∗ anyAt c cc2_stg2_0 ∗ anyAt c cc2_stg3_0 ∗ anyAt c cc2_stg4_0 ∗ anyAt c cc2_stg5_0 ∗ anyAt c cc2_stg5_1)

theorem scopedWith_out (c : Dev nD) (P0 P1 : sProp 𝕄) : scopedWith c P0 P1 ⊢ iprop(P0 ∗ P1 ∗ otherScoped (F := F) c) := by
  unfold scopedWith otherScoped
  iintro ⟨R1, R2, R3, R4, R5, R6, R7, R8, HS0, HS1, R9, R10, R11, R12, R13, R14, R15, R16⟩
  isplitl [HS0]; · iexact HS0
  isplitl [HS1]; · iexact HS1
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  isplitl [R10]; · iexact R10
  isplitl [R11]; · iexact R11
  isplitl [R12]; · iexact R12
  isplitl [R13]; · iexact R13
  isplitl [R14]; · iexact R14
  isplitl [R15]; · iexact R15
  iexact R16

theorem scopedWith_in (c : Dev nD) (P0 P1 : sProp 𝕄) : iprop(P0 ∗ P1 ∗ otherScoped (F := F) c) ⊢ scopedWith c P0 P1 := by
  unfold scopedWith otherScoped
  iintro ⟨HS0, HS1, R1, R2, R3, R4, R5, R6, R7, R8, R9, R10, R11, R12, R13, R14, R15, R16⟩
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [HS0]; · iexact HS0
  isplitl [HS1]; · iexact HS1
  isplitl [R9]; · iexact R9
  isplitl [R10]; · iexact R10
  isplitl [R11]; · iexact R11
  isplitl [R12]; · iexact R12
  isplitl [R13]; · iexact R13
  isplitl [R14]; · iexact R14
  isplitl [R15]; · iexact R15
  iexact R16

theorem PhiA1_eq (c : Dev nD) :
    (Pipeline.ΦA spec1 c : sProp 𝕄)
      = iprop(scopedWith c iprop(∃ d, owns (c : Thread nD τ) scM1_0 fullShare d) iprop(∃ d, owns (c : Thread nD τ) scM1_1 fullShare d) ∗ (∃ r, prngReg c r)) := by
  unfold Pipeline.ΦA scopedWith; rw [scopedRest1_eq]; simp only [scM1_0, scM1_1, owns_whole]; try rfl

end Cert.KernelIdeal.Hand

end
-- ==== Proof.KernelIdeal.R1RunA.lean ====
import proofs.«128430_j57578331570847_1_alg».proof.Proof.KernelIdeal.R1Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in

noncomputable def kernelRun1_A (c : Dev nD) (i : grid1.Coords) (arg1 : Memref sig .tc .vmem S512x2048 .f32) (harg1 : arg1.IsWhole) (arg2 : Memref sig .tc .vmem S1x2048 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S1x2048 .f32) (harg5 : arg5.IsWhole) (hc0 : cond1_0 i) (hc1 : ¬cond1_1 i)
    (x0 : Vec F S512x2048 .f32) :
    Σ' (L1 : List (View.Piece (Elt F) S1x2048 .f32)) (L2 : List (View.Piece (Elt F) S1x2048 .f32)) (LS0 : List (View.Piece (Elt F) S1x2048 .f32)), { LS1 : List (View.Piece (Elt F) S1x2048 .f32) //
      ∀ (xi1 xi2 : Vec F S1x2048 .f32) (E : Set ℕ) (K : PUnit → sProp 𝕄),
        iprop(owns (c : Thread nD τ) arg1 fullShare x0 ∗ owns (c : Thread nD τ) arg2 fullShare xi1 ∗ owns (c : Thread nD τ) arg3 fullShare xi2 ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare xi1 ∗ owns (c : Thread nD τ) arg3 fullShare xi2 ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1)) -∗ K ⟨⟩))
          ⊢ wp frame (wpE (defs₀ (F := F)) Variants.none c none) E (cc1__kernel i arg1 harg1 arg2 harg2 arg3 harg3 arg4 harg4 arg5 harg5) K } := by
  refine ⟨[], [], ?_, ?_, fun xi1 xi2 E K => ?run⟩
  case run =>
    simp only [cc1__kernel_eq_skeleton]; unfold cc1__kernel_skel
    unfold owns
    iintro ⟨⟨%f0, %hf0, H0⟩, ⟨%f1, %hf1, H1⟩, ⟨%f2, %hf2, H2⟩, ⟨%ds0, %fs0, -, HS0⟩, ⟨%ds1, %fs1, -, HS1⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [HS0]; · iexists _; iexact HS0
    iexists _; iexact HS1

end Cert.KernelIdeal.Hand

end
-- ==== Proof.KernelIdeal.R1RunB.lean ====
import proofs.«128430_j57578331570847_1_alg».proof.Proof.KernelIdeal.R1RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in

noncomputable def kernelRun1_B (c : Dev nD) (i : grid1.Coords) (arg1 : Memref sig .tc .vmem S512x2048 .f32) (harg1 : arg1.IsWhole) (arg2 : Memref sig .tc .vmem S1x2048 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S1x2048 .f32) (harg5 : arg5.IsWhole) (hc0 : ¬cond1_0 i) (hc1 : ¬cond1_1 i)
    (x0 : Vec F S512x2048 .f32) (xs0 : Vec F S1x2048 .f32) (xs1 : Vec F S1x2048 .f32) :
    Σ' (L1 : List (View.Piece (Elt F) S1x2048 .f32)) (L2 : List (View.Piece (Elt F) S1x2048 .f32)) (LS0 : List (View.Piece (Elt F) S1x2048 .f32)), { LS1 : List (View.Piece (Elt F) S1x2048 .f32) //
      ∀ (xi1 xi2 : Vec F S1x2048 .f32) (E : Set ℕ) (K : PUnit → sProp 𝕄),
        iprop(owns (c : Thread nD τ) arg1 fullShare x0 ∗ owns (c : Thread nD τ) arg2 fullShare xi1 ∗ owns (c : Thread nD τ) arg3 fullShare xi2 ∗ owns (c : Thread nD τ) arg4 fullShare xs0 ∗ owns (c : Thread nD τ) arg5 fullShare xs1
            ∗ (iprop(owns (c : Thread nD τ) arg1 fullShare x0 ∗ owns (c : Thread nD τ) arg2 fullShare xi1 ∗ owns (c : Thread nD τ) arg3 fullShare xi2 ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1)) -∗ K ⟨⟩))
          ⊢ wp frame (wpE (defs₀ (F := F)) Variants.none c none) E (cc1__kernel i arg1 harg1 arg2 harg2 arg3 harg3 arg4 harg4 arg5 harg5) K } := by
  refine ⟨[], [], ?_, ?_, fun xi1 xi2 E K => ?run⟩
  case run =>
    simp only [cc1__kernel_eq_skeleton]; unfold cc1__kernel_skel
    unfold owns
    iintro ⟨⟨%f0, %hf0, H0⟩, ⟨%f1, %hf1, H1⟩, ⟨%f2, %hf2, H2⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hfs0; obtain rfl := harg5.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [HS0]; · iexists _; iexact HS0
    iexists _; iexact HS1

end Cert.KernelIdeal.Hand

end
-- ==== Proof.KernelIdeal.R1RunC.lean ====
import proofs.«128430_j57578331570847_1_alg».proof.Proof.KernelIdeal.R1RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in

noncomputable def kernelRun1_C (c : Dev nD) (i : grid1.Coords) (arg1 : Memref sig .tc .vmem S512x2048 .f32) (harg1 : arg1.IsWhole) (arg2 : Memref sig .tc .vmem S1x2048 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S1x2048 .f32) (harg5 : arg5.IsWhole) (hc0 : ¬cond1_0 i) (hc1 : cond1_1 i)
    (x0 : Vec F S512x2048 .f32) (xs0 : Vec F S1x2048 .f32) (xs1 : Vec F S1x2048 .f32) :
    Σ' (L1 : List (View.Piece (Elt F) S1x2048 .f32)) (L2 : List (View.Piece (Elt F) S1x2048 .f32)) (LS0 : List (View.Piece (Elt F) S1x2048 .f32)), { LS1 : List (View.Piece (Elt F) S1x2048 .f32) //
      ∀ (E : Set ℕ) (K : PUnit → sProp 𝕄),
        iprop(owns (c : Thread nD τ) arg1 fullShare x0 ∗ (∃ d, owns (c : Thread nD τ) arg2 fullShare d) ∗ (∃ d, owns (c : Thread nD τ) arg3 fullShare d) ∗ owns (c : Thread nD τ) arg4 fullShare xs0 ∗ owns (c : Thread nD τ) arg5 fullShare xs1
            ∗ (iprop(owns (c : Thread nD τ) arg1 fullShare x0 ∗ (∃ f, arg2.view.loc (c : Thread nD τ) ↦[arg2.view.set]{fullShare} arg2.view.writes (Elt F) f L1) ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1)) -∗ K ⟨⟩))
          ⊢ wp frame (wpE (defs₀ (F := F)) Variants.none c none) E (cc1__kernel i arg1 harg1 arg2 harg2 arg3 harg3 arg4 harg4 arg5 harg5) K } := by
  refine ⟨?_, ?_, ?_, ?_, fun E K => ?run⟩
  case run =>
    simp only [cc1__kernel_eq_skeleton]; unfold cc1__kernel_skel
    unfold owns
    iintro ⟨⟨%f0, %hf0, H0⟩, ⟨%d1, %f1, -, H1⟩, ⟨%d2, %f2, -, H2⟩, ⟨%fs0, %hfs0, HS0⟩, ⟨%fs1, %hfs1, HS1⟩, Hk⟩
    obtain rfl := harg1.eq_unread hf0; obtain rfl := harg4.eq_unread hfs0; obtain rfl := harg5.eq_unread hfs1
    sl_exec (disch := first | exact hc0 | exact hc1)
    sl_step
    iapply Hk
    isplitl [H0]
    · iexists _; isplitr; · ipureintro; exact harg1.read_unread _
      iexact H0
    isplitl [H1]; · iexists _; iexact H1
    isplitl [H2]; · iexists _; iexact H2
    isplitl [HS0]; · iexists _; iexact HS0
    iexists _; iexact HS1

end Cert.KernelIdeal.Hand

end
-- ==== Proof.KernelIdeal.R1Frame.lean ====
import proofs.«128430_j57578331570847_1_alg».proof.Proof.KernelIdeal.R1RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

section Pieces
variable (c : Dev nD) (i : grid1.Coords) (arg1 : Memref sig .tc .vmem S512x2048 .f32) (harg1 : arg1.IsWhole) (arg2 : Memref sig .tc .vmem S1x2048 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S1x2048 .f32) (harg5 : arg5.IsWhole)

def out1_A_1 (hc0 : cond1_0 i) (hc1 : ¬cond1_1 i)
    (x0 : Vec F S512x2048 .f32) : Vec F S1x2048 .f32 :=
  VO1_1.read (Elt F) (VO1_1.writes (Elt F) VO1_1.junk (kernelRun1_A c i arg1 harg1 arg2 harg2 arg3 harg3 arg4 harg4 arg5 harg5 hc0 hc1 x0).1)

def out1_A_2 (hc0 : cond1_0 i) (hc1 : ¬cond1_1 i)
    (x0 : Vec F S512x2048 .f32) : Vec F S1x2048 .f32 :=
  VO1_2.read (Elt F) (VO1_2.writes (Elt F) VO1_2.junk (kernelRun1_A c i arg1 harg1 arg2 harg2 arg3 harg3 arg4 harg4 arg5 harg5 hc0 hc1 x0).2.1)

theorem scover1_A_0 (hc0 : cond1_0 i) (hc1 : ¬cond1_1 i)
    (x0 : Vec F S512x2048 .f32) (y : S1x2048.Idx) :
    ∃ pc ∈ (kernelRun1_A c i arg1 harg1 arg2 harg2 arg3 harg3 arg4 harg4 arg5 harg5 hc0 hc1 x0).2.2.1, y ∈ pc.1.set :=
  View.cover_of_tiledL (kernelRun1_A c i arg1 harg1 arg2 harg2 arg3 harg3 arg4 harg4 arg5 harg5 hc0 hc1 x0).2.2.1 S1x2048.size (by sl_kernel_rfl) y

def sout1_A_0 (hc0 : cond1_0 i) (hc1 : ¬cond1_1 i)
    (x0 : Vec F S512x2048 .f32) : Vec F S1x2048 .f32 :=
  VS1_0.read (Elt F) (VS1_0.writes (Elt F) VS1_0.junk (kernelRun1_A c i arg1 harg1 arg2 harg2 arg3 harg3 arg4 harg4 arg5 harg5 hc0 hc1 x0).2.2.1)

theorem scover1_A_1 (hc0 : cond1_0 i) (hc1 : ¬cond1_1 i)
    (x0 : Vec F S512x2048 .f32) (y : S1x2048.Idx) :
    ∃ pc ∈ (kernelRun1_A c i arg1 harg1 arg2 harg2 arg3 harg3 arg4 harg4 arg5 harg5 hc0 hc1 x0).2.2.2.1, y ∈ pc.1.set :=
  View.cover_of_tiledL (kernelRun1_A c i arg1 harg1 arg2 harg2 arg3 harg3 arg4 harg4 arg5 harg5 hc0 hc1 x0).2.2.2.1 S1x2048.size (by sl_kernel_rfl) y

def sout1_A_1 (hc0 : cond1_0 i) (hc1 : ¬cond1_1 i)
    (x0 : Vec F S512x2048 .f32) : Vec F S1x2048 .f32 :=
  VS1_1.read (Elt F) (VS1_1.writes (Elt F) VS1_1.junk (kernelRun1_A c i arg1 harg1 arg2 harg2 arg3 harg3 arg4 harg4 arg5 harg5 hc0 hc1 x0).2.2.2.1)

def out1_B_1 (hc0 : ¬cond1_0 i) (hc1 : ¬cond1_1 i)
    (x0 : Vec F S512x2048 .f32) (xs0 : Vec F S1x2048 .f32) (xs1 : Vec F S1x2048 .f32) : Vec F S1x2048 .f32 :=
  VO1_1.read (Elt F) (VO1_1.writes (Elt F) VO1_1.junk (kernelRun1_B c i arg1 harg1 arg2 harg2 arg3 harg3 arg4 harg4 arg5 harg5 hc0 hc1 x0 xs0 xs1).1)

def out1_B_2 (hc0 : ¬cond1_0 i) (hc1 : ¬cond1_1 i)
    (x0 : Vec F S512x2048 .f32) (xs0 : Vec F S1x2048 .f32) (xs1 : Vec F S1x2048 .f32) : Vec F S1x2048 .f32 :=
  VO1_2.read (Elt F) (VO1_2.writes (Elt F) VO1_2.junk (kernelRun1_B c i arg1 harg1 arg2 harg2 arg3 harg3 arg4 harg4 arg5 harg5 hc0 hc1 x0 xs0 xs1).2.1)

theorem scover1_B_0 (hc0 : ¬cond1_0 i) (hc1 : ¬cond1_1 i)
    (x0 : Vec F S512x2048 .f32) (xs0 : Vec F S1x2048 .f32) (xs1 : Vec F S1x2048 .f32) (y : S1x2048.Idx) :
    ∃ pc ∈ (kernelRun1_B c i arg1 harg1 arg2 harg2 arg3 harg3 arg4 harg4 arg5 harg5 hc0 hc1 x0 xs0 xs1).2.2.1, y ∈ pc.1.set :=
  View.cover_of_tiledL (kernelRun1_B c i arg1 harg1 arg2 harg2 arg3 harg3 arg4 harg4 arg5 harg5 hc0 hc1 x0 xs0 xs1).2.2.1 S1x2048.size (by sl_kernel_rfl) y

def sout1_B_0 (hc0 : ¬cond1_0 i) (hc1 : ¬cond1_1 i)
    (x0 : Vec F S512x2048 .f32) (xs0 : Vec F S1x2048 .f32) (xs1 : Vec F S1x2048 .f32) : Vec F S1x2048 .f32 :=
  VS1_0.read (Elt F) (VS1_0.writes (Elt F) VS1_0.junk (kernelRun1_B c i arg1 harg1 arg2 harg2 arg3 harg3 arg4 harg4 arg5 harg5 hc0 hc1 x0 xs0 xs1).2.2.1)

theorem scover1_B_1 (hc0 : ¬cond1_0 i) (hc1 : ¬cond1_1 i)
    (x0 : Vec F S512x2048 .f32) (xs0 : Vec F S1x2048 .f32) (xs1 : Vec F S1x2048 .f32) (y : S1x2048.Idx) :
    ∃ pc ∈ (kernelRun1_B c i arg1 harg1 arg2 harg2 arg3 harg3 arg4 harg4 arg5 harg5 hc0 hc1 x0 xs0 xs1).2.2.2.1, y ∈ pc.1.set :=
  View.cover_of_tiledL (kernelRun1_B c i arg1 harg1 arg2 harg2 arg3 harg3 arg4 harg4 arg5 harg5 hc0 hc1 x0 xs0 xs1).2.2.2.1 S1x2048.size (by sl_kernel_rfl) y

def sout1_B_1 (hc0 : ¬cond1_0 i) (hc1 : ¬cond1_1 i)
    (x0 : Vec F S512x2048 .f32) (xs0 : Vec F S1x2048 .f32) (xs1 : Vec F S1x2048 .f32) : Vec F S1x2048 .f32 :=
  VS1_1.read (Elt F) (VS1_1.writes (Elt F) VS1_1.junk (kernelRun1_B c i arg1 harg1 arg2 harg2 arg3 harg3 arg4 harg4 arg5 harg5 hc0 hc1 x0 xs0 xs1).2.2.2.1)

theorem cover1_C_1 (hc0 : ¬cond1_0 i) (hc1 : cond1_1 i)
    (x0 : Vec F S512x2048 .f32) (xs0 : Vec F S1x2048 .f32) (xs1 : Vec F S1x2048 .f32) (y : S1x2048.Idx) :
    ∃ pc ∈ (kernelRun1_C c i arg1 harg1 arg2 harg2 arg3 harg3 arg4 harg4 arg5 harg5 hc0 hc1 x0 xs0 xs1).1, y ∈ pc.1.set :=
  View.cover_of_tiledL (kernelRun1_C c i arg1 harg1 arg2 harg2 arg3 harg3 arg4 harg4 arg5 harg5 hc0 hc1 x0 xs0 xs1).1 S1x2048.size (by sl_kernel_rfl) y

def out1_C_1 (hc0 : ¬cond1_0 i) (hc1 : cond1_1 i)
    (x0 : Vec F S512x2048 .f32) (xs0 : Vec F S1x2048 .f32) (xs1 : Vec F S1x2048 .f32) : Vec F S1x2048 .f32 :=
  VO1_1.read (Elt F) (VO1_1.writes (Elt F) VO1_1.junk (kernelRun1_C c i arg1 harg1 arg2 harg2 arg3 harg3 arg4 harg4 arg5 harg5 hc0 hc1 x0 xs0 xs1).1)

theorem cover1_C_2 (hc0 : ¬cond1_0 i) (hc1 : cond1_1 i)
    (x0 : Vec F S512x2048 .f32) (xs0 : Vec F S1x2048 .f32) (xs1 : Vec F S1x2048 .f32) (y : S1x2048.Idx) :
    ∃ pc ∈ (kernelRun1_C c i arg1 harg1 arg2 harg2 arg3 harg3 arg4 harg4 arg5 harg5 hc0 hc1 x0 xs0 xs1).2.1, y ∈ pc.1.set :=
  View.cover_of_tiledL (kernelRun1_C c i arg1 harg1 arg2 harg2 arg3 harg3 arg4 harg4 arg5 harg5 hc0 hc1 x0 xs0 xs1).2.1 S1x2048.size (by sl_kernel_rfl) y

def out1_C_2 (hc0 : ¬cond1_0 i) (hc1 : cond1_1 i)
    (x0 : Vec F S512x2048 .f32) (xs0 : Vec F S1x2048 .f32) (xs1 : Vec F S1x2048 .f32) : Vec F S1x2048 .f32 :=
  VO1_2.read (Elt F) (VO1_2.writes (Elt F) VO1_2.junk (kernelRun1_C c i arg1 harg1 arg2 harg2 arg3 harg3 arg4 harg4 arg5 harg5 hc0 hc1 x0 xs0 xs1).2.1)

theorem scover1_C_0 (hc0 : ¬cond1_0 i) (hc1 : cond1_1 i)
    (x0 : Vec F S512x2048 .f32) (xs0 : Vec F S1x2048 .f32) (xs1 : Vec F S1x2048 .f32) (y : S1x2048.Idx) :
    ∃ pc ∈ (kernelRun1_C c i arg1 harg1 arg2 harg2 arg3 harg3 arg4 harg4 arg5 harg5 hc0 hc1 x0 xs0 xs1).2.2.1, y ∈ pc.1.set :=
  View.cover_of_tiledL (kernelRun1_C c i arg1 harg1 arg2 harg2 arg3 harg3 arg4 harg4 arg5 harg5 hc0 hc1 x0 xs0 xs1).2.2.1 S1x2048.size (by sl_kernel_rfl) y

def sout1_C_0 (hc0 : ¬cond1_0 i) (hc1 : cond1_1 i)
    (x0 : Vec F S512x2048 .f32) (xs0 : Vec F S1x2048 .f32) (xs1 : Vec F S1x2048 .f32) : Vec F S1x2048 .f32 :=
  VS1_0.read (Elt F) (VS1_0.writes (Elt F) VS1_0.junk (kernelRun1_C c i arg1 harg1 arg2 harg2 arg3 harg3 arg4 harg4 arg5 harg5 hc0 hc1 x0 xs0 xs1).2.2.1)

theorem scover1_C_1 (hc0 : ¬cond1_0 i) (hc1 : cond1_1 i)
    (x0 : Vec F S512x2048 .f32) (xs0 : Vec F S1x2048 .f32) (xs1 : Vec F S1x2048 .f32) (y : S1x2048.Idx) :
    ∃ pc ∈ (kernelRun1_C c i arg1 harg1 arg2 harg2 arg3 harg3 arg4 harg4 arg5 harg5 hc0 hc1 x0 xs0 xs1).2.2.2.1, y ∈ pc.1.set :=
  View.cover_of_tiledL (kernelRun1_C c i arg1 harg1 arg2 harg2 arg3 harg3 arg4 harg4 arg5 harg5 hc0 hc1 x0 xs0 xs1).2.2.2.1 S1x2048.size (by sl_kernel_rfl) y

def sout1_C_1 (hc0 : ¬cond1_0 i) (hc1 : cond1_1 i)
    (x0 : Vec F S512x2048 .f32) (xs0 : Vec F S1x2048 .f32) (xs1 : Vec F S1x2048 .f32) : Vec F S1x2048 .f32 :=
  VS1_1.read (Elt F) (VS1_1.writes (Elt F) VS1_1.junk (kernelRun1_C c i arg1 harg1 arg2 harg2 arg3 harg3 arg4 harg4 arg5 harg5 hc0 hc1 x0 xs0 xs1).2.2.2.1)

end Pieces

def outsAt1 (c : Dev nD) : (n : ℕ) → n < cfg1.N → Vec F S1x2048 .f32 × Vec F S1x2048 .f32 × Vec F S1x2048 .f32 × Vec F S1x2048 .f32
  | 0, hn => (out1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩), out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩))
  | n + 1, hn =>
    if h0 : (n + 1) % 16 = 0 then
      if h1 : (n + 1) % 16 = 15 then
        False.elim (by omega)
      else
        (out1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) ((hcond1_0 ⟨n + 1, hn⟩).mpr h0) (fun h => h1 ((hcond1_1 ⟨n + 1, hn⟩).mp h)) (iblk1 V c 0 ⟨n + 1, hn⟩), out1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) ((hcond1_0 ⟨n + 1, hn⟩).mpr h0) (fun h => h1 ((hcond1_1 ⟨n + 1, hn⟩).mp h)) (iblk1 V c 0 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) ((hcond1_0 ⟨n + 1, hn⟩).mpr h0) (fun h => h1 ((hcond1_1 ⟨n + 1, hn⟩).mp h)) (iblk1 V c 0 ⟨n + 1, hn⟩), sout1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) ((hcond1_0 ⟨n + 1, hn⟩).mpr h0) (fun h => h1 ((hcond1_1 ⟨n + 1, hn⟩).mp h)) (iblk1 V c 0 ⟨n + 1, hn⟩))
    else
      if h1 : (n + 1) % 16 = 15 then
        (out1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (outsAt1 c n (Nat.lt_of_succ_lt hn)).2.2.1 (outsAt1 c n (Nat.lt_of_succ_lt hn)).2.2.2, out1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (outsAt1 c n (Nat.lt_of_succ_lt hn)).2.2.1 (outsAt1 c n (Nat.lt_of_succ_lt hn)).2.2.2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (outsAt1 c n (Nat.lt_of_succ_lt hn)).2.2.1 (outsAt1 c n (Nat.lt_of_succ_lt hn)).2.2.2, sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (outsAt1 c n (Nat.lt_of_succ_lt hn)).2.2.1 (outsAt1 c n (Nat.lt_of_succ_lt hn)).2.2.2)
      else
        (out1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (outsAt1 c n (Nat.lt_of_succ_lt hn)).2.2.1 (outsAt1 c n (Nat.lt_of_succ_lt hn)).2.2.2, out1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (outsAt1 c n (Nat.lt_of_succ_lt hn)).2.2.1 (outsAt1 c n (Nat.lt_of_succ_lt hn)).2.2.2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (outsAt1 c n (Nat.lt_of_succ_lt hn)).2.2.1 (outsAt1 c n (Nat.lt_of_succ_lt hn)).2.2.2, sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (outsAt1 c n (Nat.lt_of_succ_lt hn)).2.2.1 (outsAt1 c n (Nat.lt_of_succ_lt hn)).2.2.2)

theorem outsAt1_A (c : Dev nD) (t : Fin cfg1.N) (h0 : t.val % 16 = 0) (h1 : ¬t.val % 16 = 15) :
    outsAt1 V c t.val t.isLt = (out1_A_1 c (grid1.coords t) (ms1_0 t) (hs1_0 t) (ms1_1 t) (hs1_1 t) (ms1_2 t) (hs1_2 t) scM1_0 (Memref.isWhole_whole _) scM1_1 (Memref.isWhole_whole _) ((hcond1_0 t).mpr h0) (fun h => h1 ((hcond1_1 t).mp h)) (iblk1 V c 0 t), out1_A_2 c (grid1.coords t) (ms1_0 t) (hs1_0 t) (ms1_1 t) (hs1_1 t) (ms1_2 t) (hs1_2 t) scM1_0 (Memref.isWhole_whole _) scM1_1 (Memref.isWhole_whole _) ((hcond1_0 t).mpr h0) (fun h => h1 ((hcond1_1 t).mp h)) (iblk1 V c 0 t), sout1_A_0 c (grid1.coords t) (ms1_0 t) (hs1_0 t) (ms1_1 t) (hs1_1 t) (ms1_2 t) (hs1_2 t) scM1_0 (Memref.isWhole_whole _) scM1_1 (Memref.isWhole_whole _) ((hcond1_0 t).mpr h0) (fun h => h1 ((hcond1_1 t).mp h)) (iblk1 V c 0 t), sout1_A_1 c (grid1.coords t) (ms1_0 t) (hs1_0 t) (ms1_1 t) (hs1_1 t) (ms1_2 t) (hs1_2 t) scM1_0 (Memref.isWhole_whole _) scM1_1 (Memref.isWhole_whole _) ((hcond1_0 t).mpr h0) (fun h => h1 ((hcond1_1 t).mp h)) (iblk1 V c 0 t)) := by
  obtain ⟨n, hn⟩ := t
  cases n with
  | zero => exact rfl
  | succ n => exact (dif_pos h0).trans ((dif_neg h1).trans rfl)

theorem outsAt1_B (c : Dev nD) (t : Fin cfg1.N) (h0 : ¬t.val % 16 = 0) (h1 : ¬t.val % 16 = 15) :
    outsAt1 V c t.val t.isLt = (out1_B_1 c (grid1.coords t) (ms1_0 t) (hs1_0 t) (ms1_1 t) (hs1_1 t) (ms1_2 t) (hs1_2 t) scM1_0 (Memref.isWhole_whole _) scM1_1 (Memref.isWhole_whole _) (fun h => h0 ((hcond1_0 t).mp h)) (fun h => h1 ((hcond1_1 t).mp h)) (iblk1 V c 0 t) (outsAt1 V c (t.val - 1) (Nat.lt_of_le_of_lt (Nat.sub_le _ _) t.isLt)).2.2.1 (outsAt1 V c (t.val - 1) (Nat.lt_of_le_of_lt (Nat.sub_le _ _) t.isLt)).2.2.2, out1_B_2 c (grid1.coords t) (ms1_0 t) (hs1_0 t) (ms1_1 t) (hs1_1 t) (ms1_2 t) (hs1_2 t) scM1_0 (Memref.isWhole_whole _) scM1_1 (Memref.isWhole_whole _) (fun h => h0 ((hcond1_0 t).mp h)) (fun h => h1 ((hcond1_1 t).mp h)) (iblk1 V c 0 t) (outsAt1 V c (t.val - 1) (Nat.lt_of_le_of_lt (Nat.sub_le _ _) t.isLt)).2.2.1 (outsAt1 V c (t.val - 1) (Nat.lt_of_le_of_lt (Nat.sub_le _ _) t.isLt)).2.2.2, sout1_B_0 c (grid1.coords t) (ms1_0 t) (hs1_0 t) (ms1_1 t) (hs1_1 t) (ms1_2 t) (hs1_2 t) scM1_0 (Memref.isWhole_whole _) scM1_1 (Memref.isWhole_whole _) (fun h => h0 ((hcond1_0 t).mp h)) (fun h => h1 ((hcond1_1 t).mp h)) (iblk1 V c 0 t) (outsAt1 V c (t.val - 1) (Nat.lt_of_le_of_lt (Nat.sub_le _ _) t.isLt)).2.2.1 (outsAt1 V c (t.val - 1) (Nat.lt_of_le_of_lt (Nat.sub_le _ _) t.isLt)).2.2.2, sout1_B_1 c (grid1.coords t) (ms1_0 t) (hs1_0 t) (ms1_1 t) (hs1_1 t) (ms1_2 t) (hs1_2 t) scM1_0 (Memref.isWhole_whole _) scM1_1 (Memref.isWhole_whole _) (fun h => h0 ((hcond1_0 t).mp h)) (fun h => h1 ((hcond1_1 t).mp h)) (iblk1 V c 0 t) (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 16 = 0) (h1 : t.val % 16 = 15) :
    outsAt1 V c t.val t.isLt = (out1_C_1 c (grid1.coords t) (ms1_0 t) (hs1_0 t) (ms1_1 t) (hs1_1 t) (ms1_2 t) (hs1_2 t) scM1_0 (Memref.isWhole_whole _) scM1_1 (Memref.isWhole_whole _) (fun h => h0 ((hcond1_0 t).mp h)) ((hcond1_1 t).mpr h1) (iblk1 V c 0 t) (outsAt1 V c (t.val - 1) (Nat.lt_of_le_of_lt (Nat.sub_le _ _) t.isLt)).2.2.1 (outsAt1 V c (t.val - 1) (Nat.lt_of_le_of_lt (Nat.sub_le _ _) t.isLt)).2.2.2, out1_C_2 c (grid1.coords t) (ms1_0 t) (hs1_0 t) (ms1_1 t) (hs1_1 t) (ms1_2 t) (hs1_2 t) scM1_0 (Memref.isWhole_whole _) scM1_1 (Memref.isWhole_whole _) (fun h => h0 ((hcond1_0 t).mp h)) ((hcond1_1 t).mpr h1) (iblk1 V c 0 t) (outsAt1 V c (t.val - 1) (Nat.lt_of_le_of_lt (Nat.sub_le _ _) t.isLt)).2.2.1 (outsAt1 V c (t.val - 1) (Nat.lt_of_le_of_lt (Nat.sub_le _ _) t.isLt)).2.2.2, sout1_C_0 c (grid1.coords t) (ms1_0 t) (hs1_0 t) (ms1_1 t) (hs1_1 t) (ms1_2 t) (hs1_2 t) scM1_0 (Memref.isWhole_whole _) scM1_1 (Memref.isWhole_whole _) (fun h => h0 ((hcond1_0 t).mp h)) ((hcond1_1 t).mpr h1) (iblk1 V c 0 t) (outsAt1 V c (t.val - 1) (Nat.lt_of_le_of_lt (Nat.sub_le _ _) t.isLt)).2.2.1 (outsAt1 V c (t.val - 1) (Nat.lt_of_le_of_lt (Nat.sub_le _ _) t.isLt)).2.2.2, sout1_C_1 c (grid1.coords t) (ms1_0 t) (hs1_0 t) (ms1_1 t) (hs1_1 t) (ms1_2 t) (hs1_2 t) scM1_0 (Memref.isWhole_whole _) scM1_1 (Memref.isWhole_whole _) (fun h => h0 ((hcond1_0 t).mp h)) ((hcond1_1 t).mpr h1) (iblk1 V c 0 t) (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

def PhiS1 (c : Dev nD) : (n : ℕ) → n ≤ cfg1.N → sProp 𝕄
  | 0, _ => Pipeline.ΦA spec1 c
  | n + 1, hn => iprop(scopedWith c (owns (c : Thread nD τ) scM1_0 fullShare (outsAt1 V c n hn).2.2.1) (owns (c : Thread nD τ) scM1_1 fullShare (outsAt1 V c n hn).2.2.2) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(scopedWith c (owns (c : Thread nD τ) scM1_0 fullShare (outsAt1 V c n hn).2.2.1) (owns (c : Thread nD τ) scM1_1 fullShare (outsAt1 V c n hn).2.2.2) ∗ (∃ r, prngReg c r)) := rfl

theorem PhiS1_pos (c : Dev nD) (n : ℕ) (h : n ≤ cfg1.N) (hz : n ≠ 0) :
    PhiS1 V c n h = iprop(scopedWith c (owns (c : Thread nD τ) scM1_0 fullShare (outsAt1 V c (n - 1) (by omega)).2.2.1) (owns (c : Thread nD τ) scM1_1 fullShare (outsAt1 V c (n - 1) (by omega)).2.2.2) ∗ (∃ r, prngReg c r)) := by
  cases n with
  | zero => exact absurd rfl hz
  | succ n => rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => (outsAt1 V c t.val t.isLt).1
    | ⟨2, _⟩ => (outsAt1 V c t.val t.isLt).2.1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = (outsAt1 V c t.val t.isLt).1 := by dsimp only [dat1]
theorem after1_2 (c : Dev nD) (t : Fin cfg1.N) : (dat1 V c).after 2 t = (outsAt1 V c t.val t.isLt).2.1 := by dsimp only [dat1]

theorem before1_0 (c : Dev nD) (t : Fin cfg1.N) (d) : (dat1 V c).before 0 t d = iblk1 V c 0 t :=
  before1_0_of V (dat1 V c) (A_eq1 V c 0) (after1_0 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).owesAt () t.succ = (dat1 V c).owesAt () t.castSucc from rfl]
  rw [show (dat1 V c).Φ t.succ = PhiS1 V c (t.val + 1) t.isLt from rfl, PhiS1_succ]
  have hN : t.val < 16 := lt_of_lt_of_eq t.isLt (show cfg1.N = 16 from N_1)
  rw [show (dat1 V c).leavesExact 0 t = owns (c : Thread nD τ) (ms1_0 t) fullShare ((dat1 V c).after 0 t) from by
    unfold Dat.leavesExact; rw [liveAt1_0 t], after1_0]
  by_cases h0 : t.val % 16 = 0
  · have h1 : ¬t.val % 16 = 15 := by omega
    have hz : t.val = 0 := by omega
    rw [Dat.leavesExact_idle (dat1 V c) 1 t (idleAt1_1 t (fun h => h1 ((hcond1_1 t).mp h))) (noFlush1_1 t (fun h => h1 ((hcond1_1 t).mp h)))]
    rw [Dat.leavesExact_idle (dat1 V c) 2 t (idleAt1_2 t (fun h => h1 ((hcond1_1 t).mp h))) (noFlush1_2 t (fun h => h1 ((hcond1_1 t).mp h)))]
    rw [outsAt1_A V c t h0 h1]
    unfold sout1_A_0 sout1_A_1; (try dsimp only)
    rw [PhiS1_castSucc V c t, PhiS1_zero V c _ _ hz, PhiA1_eq]
    iintro ⟨⟨HW, Hg⟩, Ho, ⟨%d0, H0⟩, ⟨%d1, H1⟩, ⟨%d2, H2⟩⟩
    ihave ⟨HS0, HS1, HR⟩ := (scopedWith_out c _ _) $$ HW
    iapply ((kernelRun1_A c (grid1.coords t) _ _ _ _ _ _ _ _ _ _ ((hcond1_0 t).mpr h0) (fun h => h1 ((hcond1_1 t).mp h)) (iblk1 V c 0 t)).2.2.2.2 _ _ Set.univ _)
    isplitl [H0]; · iexact H0
    isplitl [H1]; · iexact H1
    isplitl [H2]; · iexact H2
    isplitl [HS0]; · iexact HS0
    isplitl [HS1]; · iexact HS1
    iintro ⟨H0, H1, H2, ⟨%es0, HS0⟩, ⟨%es1, HS1⟩⟩
    isplitl [HS0 HS1 HR Hg]
    · isplitr [Hg]
      swap; · iexact Hg
      iapply (scopedWith_in c _ _)
      isplitl [HS0]
      · unfold owns; iexists _; isplitr
        swap; · iexact HS0
        ipureintro; exact View.read_writes_of_cover _ _ _ _ _ (scover1_A_0 c _ _ _ _ _ _ _ _ _ _ _ _ _ _)
      isplitl [HS1]
      · unfold owns; iexists _; isplitr
        swap; · iexact HS1
        ipureintro; exact View.read_writes_of_cover _ _ _ _ _ (scover1_A_1 c _ _ _ _ _ _ _ _ _ _ _ _ _ _)
      iexact HR
    isplitl [Ho]; · iexact Ho
    isplitl [H0]; · iexact H0
    isplitl [H1]; · iexists _; iexact H1
    iexists _; iexact H2
  · have hz : t.val ≠ 0 := by omega
    by_cases h1 : t.val % 16 = 15
    · rw [show (dat1 V c).leavesExact 1 t = owns (c : Thread nD τ) (ms1_1 t) fullShare ((dat1 V c).after 1 t) from by
        unfold Dat.leavesExact; rw [liveAt1_1 t ((hcond1_1 t).mpr h1)], after1_1]
      rw [show (dat1 V c).leavesExact 2 t = owns (c : Thread nD τ) (ms1_2 t) fullShare ((dat1 V c).after 2 t) from by
        unfold Dat.leavesExact; rw [liveAt1_2 t ((hcond1_1 t).mpr h1)], after1_2]
      rw [outsAt1_C V c t h0 h1]
      unfold out1_C_1 out1_C_2 sout1_C_0 sout1_C_1; (try dsimp only)
      rw [PhiS1_castSucc V c t, PhiS1_pos V c _ _ hz]
      iintro ⟨⟨HW, Hg⟩, Ho, ⟨%d0, H0⟩, ⟨%d1, H1⟩, ⟨%d2, H2⟩⟩
      ihave ⟨HS0, HS1, HR⟩ := (scopedWith_out c _ _) $$ HW
      iapply ((kernelRun1_C c (grid1.coords t) _ _ _ _ _ _ _ _ _ _ (fun h => h0 ((hcond1_0 t).mp h)) ((hcond1_1 t).mpr h1) (iblk1 V c 0 t) _ _).2.2.2.2 Set.univ _)
      isplitl [H0]; · iexact H0
      isplitl [H1]; · iexists _; iexact H1
      isplitl [H2]; · iexists _; iexact H2
      isplitl [HS0]; · iexact HS0
      isplitl [HS1]; · iexact HS1
      iintro ⟨H0, ⟨%e1, H1⟩, ⟨%e2, H2⟩, ⟨%es0, HS0⟩, ⟨%es1, HS1⟩⟩
      isplitl [HS0 HS1 HR Hg]
      · isplitr [Hg]
        swap; · iexact Hg
        iapply (scopedWith_in c _ _)
        isplitl [HS0]
        · unfold owns; iexists _; isplitr
          swap; · iexact HS0
          ipureintro; exact View.read_writes_of_cover _ _ _ _ _ (scover1_C_0 c _ _ _ _ _ _ _ _ _ _ _ _ _ _ _ _)
        isplitl [HS1]
        · unfold owns; iexists _; isplitr
          swap; · iexact HS1
          ipureintro; exact View.read_writes_of_cover _ _ _ _ _ (scover1_C_1 c _ _ _ _ _ _ _ _ _ _ _ _ _ _ _ _)
        iexact HR
      isplitl [Ho]; · iexact Ho
      isplitl [H0]; · iexact H0
      isplitl [H1]
      · unfold owns; iexists _; isplitr
        swap; · iexact H1
        ipureintro; exact View.read_writes_of_cover _ _ _ _ _ (cover1_C_1 c _ _ _ _ _ _ _ _ _ _ _ _ _ _ _ _)
      unfold owns; iexists _; isplitr
      swap; · iexact H2
      ipureintro; exact View.read_writes_of_cover _ _ _ _ _ (cover1_C_2 c _ _ _ _ _ _ _ _ _ _ _ _ _ _ _ _)
    · rw [Dat.leavesExact_idle (dat1 V c) 1 t (idleAt1_1 t (fun h => h1 ((hcond1_1 t).mp h))) (noFlush1_1 t (fun h => h1 ((hcond1_1 t).mp h)))]
      rw [Dat.leavesExact_idle (dat1 V c) 2 t (idleAt1_2 t (fun h => h1 ((hcond1_1 t).mp h))) (noFlush1_2 t (fun h => h1 ((hcond1_1 t).mp h)))]
      rw [outsAt1_B V c t h0 h1]
      unfold sout1_B_0 sout1_B_1; (try dsimp only)
      rw [PhiS1_castSucc V c t, PhiS1_pos V c _ _ hz]
      iintro ⟨⟨HW, Hg⟩, Ho, ⟨%d0, H0⟩, ⟨%d1, H1⟩, ⟨%d2, H2⟩⟩
      ihave ⟨HS0, HS1, HR⟩ := (scopedWith_out c _ _) $$ HW
      iapply ((kernelRun1_B c (grid1.coords t) _ _ _ _ _ _ _ _ _ _ (fun h => h0 ((hcond1_0 t).mp h)) (fun h => h1 ((hcond1_1 t).mp h)) (iblk1 V c 0 t) _ _).2.2.2.2 _ _ Set.univ _)
      isplitl [H0]; · iexact H0
      isplitl [H1]; · iexact H1
      isplitl [H2]; · iexact H2
      isplitl [HS0]; · iexact HS0
      isplitl [HS1]; · iexact HS1
      iintro ⟨H0, H1, H2, ⟨%es0, HS0⟩, ⟨%es1, HS1⟩⟩
      isplitl [HS0 HS1 HR Hg]
      · isplitr [Hg]
        swap; · iexact Hg
        iapply (scopedWith_in c _ _)
        isplitl [HS0]
        · unfold owns; iexists _; isplitr
          swap; · iexact HS0
          ipureintro; exact View.read_writes_of_cover _ _ _ _ _ (scover1_B_0 c _ _ _ _ _ _ _ _ _ _ _ _ _ _ _ _)
        isplitl [HS1]
        · unfold owns; iexists _; isplitr
          swap; · iexact HS1
          ipureintro; exact View.read_writes_of_cover _ _ _ _ _ (scover1_B_1 c _ _ _ _ _ _ _ _ _ _ _ _ _ _ _ _)
        iexact HR
      isplitl [Ho]; · iexact Ho
      isplitl [H0]; · iexact H0
      isplitl [H1]; · iexists _; iexact H1
      iexists _; iexact H2

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨HW, Hg⟩
  isplitl [HW]
  · ihave ⟨HS0, HS1, HR⟩ := (scopedWith_out c _ _) $$ HW
    iapply (scopedWith_in c _ _)
    isplitl [HS0]; · iexists _; iexact HS0
    isplitl [HS1]; · iexists _; iexact HS1
    iexact HR
  iexact Hg

theorem hout1 (c : Dev nD) : (dat1 V c).Φ (Fin.last cfg1.N) ⊢ Pipeline.ΦA spec1 c :=
  Phi_out1 V c _ (by rw [Fin.val_last]; have : cfg1.N = 16 := N_1; omega)

end Cert.KernelIdeal.Hand

end
-- ==== Proof.KernelIdeal.R2Frame.lean ====
import proofs.«128430_j57578331570847_1_alg».proof.Proof.Gen.KernelIdeal.Launch
import proofs.«128430_j57578331570847_1_alg».proof.Proof.Gen.KernelIdeal.Skeleton
import proofs.«128430_j57578331570847_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

abbrev rBlk : Rect S256x2048 := Rect.unit (s := S256x2048) ![0, 0] S256x2048.size inb_S256x2048_S256x2048_0_0

abbrev rRow : Rect S1x2048 := Rect.unit (s := S1x2048) ![0, 0] S1x2048.size inb_S1x2048_S1x2048_0_0

def out2_5 (x0 : Vec F S256x2048 .f32) (x1 x2 x3 x4 : Vec F S1x2048 .f32) : Vec F S256x2048 .f32 :=
  View.canon [⟨rBlk, k2_pay1 (View.ld x0 rBlk) (View.ld x2 rRow) (View.ld x1 rRow) (View.ld x3 rRow) (View.ld x4 rRow)⟩]

theorem cover2_5 (p0 : Vec F S256x2048 .f32) (y : S256x2048.Idx) :
    ∃ pc ∈ ([⟨rBlk, p0⟩] : List (View.Piece (Elt F) S256x2048 .f32)), y ∈ pc.1.set :=
  View.cover_of_tiled [⟨rBlk, p0⟩] S256x2048.size (by rfl) y

set_option maxHeartbeats 1000000 in

theorem sound_kernel2 (c : Dev nD) (E : Set ℕ) (i : grid2.Coords)
    (arg1 : Memref sig .tc .vmem S256x2048 .f32) (harg1 : arg1.IsWhole)
    (arg2 : Memref sig .tc .vmem S1x2048 .f32) (harg2 : arg2.IsWhole)
    (arg3 : Memref sig .tc .vmem S1x2048 .f32) (harg3 : arg3.IsWhole)
    (arg4 : Memref sig .tc .vmem S1x2048 .f32) (harg4 : arg4.IsWhole)
    (arg5 : Memref sig .tc .vmem S1x2048 .f32) (harg5 : arg5.IsWhole)
    (arg6 : Memref sig .tc .vmem S256x2048 .f32) (harg6 : arg6.IsWhole)
    (x0 : Vec F S256x2048 .f32) (x1 x2 x3 x4 : Vec F S1x2048 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4
            ∗ owns (c : Thread nD τ) arg6 fullShare (out2_5 x0 x1 x2 x3 x4)) -∗ K ⟨⟩))
      ⊢ wp frame (wpE (defs₀ (F := F)) Variants.none c none) E (cc2__normalize_kernel i arg1 harg1 arg2 harg2 arg3 harg3 arg4 harg4 arg5 harg5 arg6 harg6) K := by
  simp only [cc2__normalize_kernel_eq_skeleton]; unfold cc2__normalize_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = out2_5 (iblk2 V c 0 t) (iblk2 V c 1 t) (iblk2 V c 2 t) (iblk2 V c 3 t) (iblk2 V c 4 t) := by
  dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KernelIdeal.Assemble.lean ====
import proofs.«128430_j57578331570847_1_alg».proof.Proof.KernelIdeal.R0Frame
import proofs.«128430_j57578331570847_1_alg».proof.Proof.KernelIdeal.R1Frame
import proofs.«128430_j57578331570847_1_alg».proof.Proof.KernelIdeal.R2Frame
import proofs.«128430_j57578331570847_1_alg».proof.Proof.Gen.KernelIdeal.Regions
import proofs.«128430_j57578331570847_1_alg».proof.Proof.Gen.KernelIdeal.Skeleton
import proofs.«128430_j57578331570847_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev X9 (c : Dev nD) : Valuation τ sig (Elt F) := Gen.V9 m c
abbrev T9 (c : Dev nD) (b : Ref sig .tc) : Buf (Elt F) ((c : Thread nD τ).loc b) := X9 m c b

def X10 (c : Dev nD) : Valuation τ sig (Elt F) :=
  Pipeline.withArrays spec0 c (X9 m c) fun w => (dat0 (T9 m) c).arrAt w cfg0.N
abbrev T10 (c : Dev nD) (b : Ref sig .tc) : Buf (Elt F) ((c : Thread nD τ).loc b) := X10 m c b

def X11 (c : Dev nD) : Valuation τ sig (Elt F) :=
  Pipeline.withArrays spec1 c (X10 m c) fun w => (dat1 (T10 m) c).arrAt w cfg1.N
abbrev T11 (c : Dev nD) (b : Ref sig .tc) : Buf (Elt F) ((c : Thread nD τ).loc b) := X11 m c b

def X12 (c : Dev nD) : Valuation τ sig (Elt F) :=
  Pipeline.withArrays spec2 c (X11 m c) fun w => (dat2 (T11 m) c).arrAt w cfg2.N

theorem X10_arr (c : Dev nD) (w : Fin cfg0.W) :
    X10 m c (Proc.devRef .tc (Pipeline.arrRef spec0 w)) = (dat0 (T9 m) c).arrAt w cfg0.N := by
  unfold X10; exact Pipeline.withArrays_arr spec0 launch0.win.arr_inj c _ _ w
theorem X10_of_ne (c : Dev nD) (b : Ref sig .tc) (hb : ∀ w, Pipeline.arrRef spec0 w ≠ b) :
    X10 m c (Proc.devRef .tc b) = X9 m c (Proc.devRef .tc b) := by
  unfold X10; exact Pipeline.withArrays_of_ne spec0 c _ _ b hb
theorem X11_arr (c : Dev nD) (w : Fin cfg1.W) :
    X11 m c (Proc.devRef .tc (Pipeline.arrRef spec1 w)) = (dat1 (T10 m) c).arrAt w cfg1.N := by
  unfold X11; exact Pipeline.withArrays_arr spec1 launch1.win.arr_inj c _ _ w
theorem X11_of_ne (c : Dev nD) (b : Ref sig .tc) (hb : ∀ w, Pipeline.arrRef spec1 w ≠ b) :
    X11 m c (Proc.devRef .tc b) = X10 m c (Proc.devRef .tc b) := by
  unfold X11; exact Pipeline.withArrays_of_ne spec1 c _ _ b hb
theorem X12_arr (c : Dev nD) (w : Fin cfg2.W) :
    X12 m c (Proc.devRef .tc (Pipeline.arrRef spec2 w)) = (dat2 (T11 m) c).arrAt w cfg2.N := by
  unfold X12; exact Pipeline.withArrays_arr spec2 launch2.win.arr_inj c _ _ w
theorem X12_of_ne (c : Dev nD) (b : Ref sig .tc) (hb : ∀ w, Pipeline.arrRef spec2 w ≠ b) :
    X12 m c (Proc.devRef .tc b) = X11 m c (Proc.devRef .tc b) := by
  unfold X12; exact Pipeline.withArrays_of_ne spec2 c _ _ b hb

def pdats : (p : Fin 3) → (c : Dev nD) → Dat τ (Elt F) Unit ℕ (UR sig nD τ) ℕ (cfgs p) c
  | ⟨0, _⟩ => fun c => dat0 (T9 m) c
  | ⟨1, _⟩ => fun c => dat1 (T10 m) c
  | ⟨2, _⟩ => fun c => dat2 (T11 m) c
abbrev 𝒱₀ : Variants := Variants.none

abbrev L : GSem nD τ sig → Finset Unit := fun _ => ∅
abbrev lv : GSem nD τ sig → Unit → ℕ := fun _ _ => 0

abbrev Rst (c : Dev nD) : sProp 𝕄 := iprop((∃ r, prngReg c r) ∗ ∃ W, owes (c : Thread nD τ) (0 : CellTallies nD τ sig Unit) W)

set_option backward.isDefEq.respectTransparency.types false in
/-- One region as a step of the run, from the contents `X` to the contents `X'`: `X` but for the region's arrays. -/
def regOf (p : Fin 3) (lf : Pipeline.LaunchFacts (nD := nD) (τ := τ) cfgs p) (X X' : Dev nD → Valuation τ sig (Elt F))
    (hbody : ∀ c, Pipeline.BodyObligationLoose (pdats m p c) defs₀ 𝒱₀ () Set.univ)
    (hin : ∀ c, (Pipeline.ΦA (cfgs p).spec c : sProp 𝕄) ⊢ (pdats m p c).Φ 0)
    (hout : ∀ c, (pdats m p c).Φ (Fin.last (cfgs p).N) ⊢ (Pipeline.ΦA (cfgs p).spec c : sProp 𝕄))
    (hA : ∀ c w, (pdats m p c).A w = X c (Pipeline.arrRef (cfgs p).spec w))
    (hF : ∀ c w, X' c (Proc.devRef .tc (Pipeline.arrRef (cfgs p).spec w)) = (pdats m p c).arrAt w (cfgs p).N)
    (hne : ∀ c (b : Ref sig .tc), (∀ w, Pipeline.arrRef (cfgs p).spec w ≠ b) → X' c (Proc.devRef .tc b) = X c (Proc.devRef .tc b))
    (hq : ∀ c w, (pdats m p c).q w = fullShare := by exact fun _ _ => rfl)
    (howed : ∀ c t, (pdats m p c).owed t = 0 := by exact fun _ _ => rfl)
    (hrec : ∀ c, (pdats m p c).recorded 0 = Set.univ := by exact fun _ => rfl) :
    RegionSeg (pcfgs (F := F)) adm (pdats m) () defs₀ 𝒱₀ L lv p where
  win := lf.win.to₀
  block_pos := lf.block_pos
  stage_whole := lf.stage_whole
  K := PEmpty
  osem k := k.elim
  ho := Pipeline.OwnSemFacts.none _
  hbody := hbody
  hwaits := Pipeline.hwaits_of_owed_zero _ _ _ _ L lv p howed
  pre c := iprop(StableHlo.held (c : Thread nD τ) (Pipeline.ucRefs τ sig) (X c) ∗ Rst c)
  post c := iprop(StableHlo.held (c : Thread nD τ) (Pipeline.ucRefs τ sig) (X' c) ∗ Rst c)
  X c := iprop(∃ r, prngReg c r)
  Y c := iprop(∃ r, prngReg c r)
  Z c := Pipeline.unscopedRest (Ix := Unit) (Name := ℕ) (U := UR sig nD τ) (Lvl := ℕ) (cfgs p).spec c (fun b => X c b)
  hentry c := by
    rw [Pipeline.ownSems0_none]
    have hsplit := Pipeline.arrays_of_unscopedBufs (p := p) (pcfgs (F := F)) adm (pdats m) lf.win lf.arr_whole c
      ((pdats m p c).share_full (hq c)) (fun b => X c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr
      · ipureintro; unfold Dat.bound; rw [hrec c]; exact fun _ _ => Or.inl trivial
      rw [howed c 0]
      iexact HO
    isplitl [Hp]; · iexact Hp
    iexact Hrest
  hin c := by
    unfold Pipeline.ΦA at hin
    iintro ⟨Hp, -, Hr⟩
    iapply (hin c)
    isplitl [Hr]; · iexact Hr
    iexact Hp
  hout c := by
    rw [Pipeline.ownSems0_none]
    refine (hout c).trans ?_
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c (pdats m) ((pdats m p c).share_full (hq c))
      (fun b => X c b) (fun b => X' c b) ((pdats m p c).arrAt · (cfgs p).N) (fun w => (hF c w).symm)
      (fun b hb => hne c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    rw [howed c]
    iexact HO

def reg0 := regOf m 0 launch0 (X9 m) (X10 m) (fun c => (body_obligation0 (T9 m) c).loose) (hin0 (T9 m)) (hout0 (T9 m)) (A_eq0 (T9 m)) (X10_arr m) (X10_of_ne m)
def reg1 := regOf m 1 launch1 (X10 m) (X11 m) (fun c => (body_obligation1 (T10 m) c).loose) (hin1 (T10 m)) (hout1 (T10 m)) (A_eq1 (T10 m)) (X11_arr m) (X11_of_ne m)
def reg2 := regOf m 2 launch2 (X11 m) (X12 m) (fun c => (body_obligation2 (T11 m) c).loose) (fun _ => .rfl) (fun _ => .rfl) (A_eq2 (T11 m)) (X12_arr m) (X12_of_ne m)

/-- No host stretch writes an argument. -/
theorem X9_arg (c : Dev nD) (b : Ref sig .tc) (hb : b ∈ [main_arg0, main_arg1, main_arg2, main_arg3, main_arg4]) :
    X9 m c b = m ((c : Thread nD τ).loc b) := by
  have h : ∀ l : List (Ref sig .tc), (∀ a ∈ [main_arg0, main_arg1, main_arg2, main_arg3, main_arg4], a ∉ l) → b ∉ l := fun l hl => hl b hb
  exact (V9_of m c b (h _ (by decide))).trans <| (V8_of m c b (h _ (by decide))).trans <| (V7_of m c b (h _ (by decide))).trans <|
    (V6_of m c b (h _ (by decide))).trans <| (V5_of m c b (h _ (by decide))).trans <| (V4_of m c b (h _ (by decide))).trans <|
    (V3_of m c b (h _ (by decide))).trans <| (V2_of m c b (h _ (by decide))).trans <| (V1_of m c b (h _ (by decide))).trans rfl

/-- No region changes an argument: `main_arg0` is read through an input window of region 0, the others are no window's array. -/
theorem X12_arg0 (c : Dev nD) : X12 m c main_arg0 = m ((c : Thread nD τ).loc main_arg0) :=
  (X12_of_ne m c main_arg0 (by decide)).trans <| (X11_of_ne m c main_arg0 (by decide)).trans <|
  ((X10_arr m c 0).trans (((dat0 (T9 m) c).arrAt_in 0 rfl _).trans (A_eq0 (T9 m) c 0))).trans (X9_arg m c _ (by decide))

theorem X12_arg (c : Dev nD) (b : Ref sig .tc) (hb : b ∈ [main_arg1, main_arg2, main_arg3, main_arg4]) :
    X12 m c b = m ((c : Thread nD τ).loc b) := by
  have h : ∀ (n : ℕ) (f : Fin n → Ref sig .tc), (∀ a ∈ [main_arg1, main_arg2, main_arg3, main_arg4], ∀ w, f w ≠ a) → ∀ w, f w ≠ b :=
    fun _ _ hf => hf b hb
  exact (X12_of_ne m c b (h _ _ (by decide))).trans <| (X11_of_ne m c b (h _ _ (by decide))).trans <|
    (X10_of_ne m c b (h _ _ (by decide))).trans (X9_arg m c b (List.mem_cons_of_mem _ hb))

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in

theorem run_main : θ_run defs (onTc (τ := τ) (main (F := F))) ⟨m, fun _ => 0, ρ⟩ (fun r => ∀ c : Dev nD,
      r.2.mem ((c.tc : Thread nD τ).loc main_v17) = X12 m c main_v17
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine Pipeline.θ_run_regions_kit_dev (pcfgs (F := F)) adm (pdats m) () cellOf_inj emb₁ defs₀ 𝒱₀ L lv m ρ main
    (segs m 𝒱₀ L lv (fun _ => Rst) () (pdats m) (reg0 m) (reg1 m) (reg2 m))
    (fun c Q => by
      rewrite [main_chain c, Seg.run_eq_chain,
        show (segs m 𝒱₀ L lv (fun _ => Rst) () (pdats m) (reg0 m) (reg1 m) (reg2 m) c).map Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          StableHlo.seq hostOps0_7,
          StableHlo.seq hostOps0_8,
          Prog.lift (.customCall (Pipeline.entry 0) ()),
          Prog.lift (.customCall (Pipeline.entry 1) ()),
          Prog.lift (.customCall (Pipeline.entry 2) ()) ] from rfl]
      exact .rfl)
    (fun c => by simp only [segs, Seg.pipes_host, Seg.pipes_region, Seg.pipes_nil]; decide) (fun _ => 0) (fun _ _ => rfl)
    (fun _ => iprop(emp)) (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Rst c))
    (Tₙ := fun c => StableHlo.held (c : Thread nD τ) (Pipeline.ucRefs τ sig) (X12 m c))
    (hch := fun c => ⟨.rfl, .rfl, .rfl, .rfl, .rfl, .rfl, .rfl, .rfl, .rfl, .rfl, .rfl, .rfl,
      sep_mono .rfl (by iintro ⟨-, H⟩; iexact H)⟩)
    (hinit := ?_) (QY := fun c s => s.mem ((c.tc : Thread nD τ).loc main_v17) = X12 m c main_v17 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4))
    (hfin := fun c s' => ?_) (hQ := fun _ h => h)
  ·
    have hc : ∀ c : Dev nD, iprop(unscopedBufs c (fun b => m ((c.tc : Thread nD τ).loc b)) ∗ unscopedSems0 c
          ∗ owes (c.tc : Thread nD τ) ((fun _ => 0 : Dev nD → CellTallies nD τ sig Unit) c) ∅ ∗ Pipeline.launchCred (fun _ => 0 : Dev nD → CellTallies nD τ sig Unit) c ∗ prngReg c (ρ c) ∗ (iprop(emp) : sProp 𝕄))
        ⊢ (iprop(StableHlo.held (c : Thread nD τ) (Pipeline.ucRefs τ sig) (V0 m c) ∗ Rst c) : sProp 𝕄) := fun c => by
      rw [← Pipeline.unscopedBufs_held (Ix := Unit) (Name := ℕ) (U := UR sig nD τ) (Lvl := ℕ) c (V0 m c)]
      iintro ⟨Hh, -, HO, -, Hp, -⟩
      isplitl [Hh]; · iexact Hh
      isplitl [Hp]; · iexists _; iexact Hp
      iexists ∅; iexact HO
    have hsplit : (bigSep Finset.univ fun c : Dev nD => iprop(unscopedBufs c (fun b => m ((c.tc : Thread nD τ).loc b)) ∗ unscopedSems0 c
          ∗ owes (c.tc : Thread nD τ) ((fun _ => 0 : Dev nD → CellTallies nD τ sig Unit) c) ∅ ∗ Pipeline.launchCred (fun _ => 0 : Dev nD → CellTallies nD τ sig Unit) c ∗ prngReg c (ρ c) ∗ (iprop(emp) : sProp 𝕄)))
        ⊢ (bigSep Finset.univ fun c : Dev nD => iprop(StableHlo.held (c : Thread nD τ) (Pipeline.ucRefs τ sig) (V0 m c) ∗ Rst c) : sProp 𝕄) :=
      bigSep_mono fun c _ => hc c
    iintro ⟨H, -⟩
    ihave H' := hsplit $$ H
    imodintro
    iexact H'
  ·
    unfold StableHlo.held
    iintro ⟨Hh, HSI⟩
    ihave Hr := (pointsTo_read_all (Pipeline.ucRefs τ sig) (fun b => ((c : Thread nD τ).1, b)) (X12 m c) s') $$ [Hh HSI]
    · isplitl [Hh] <;> iassumption
    icases Hr with ⟨%h, HSI⟩
    imodintro
    isplitr
    · ipureintro
      exact ⟨h (Proc.devRef .tc main_v17) (mem_uc main_v17 (by decide)),
        (h (Proc.devRef .tc main_arg0) (mem_uc main_arg0 (by decide))).trans (X12_arg0 m c),
        (h (Proc.devRef .tc main_arg1) (mem_uc main_arg1 (by decide))).trans (X12_arg m c _ (by decide)),
        (h (Proc.devRef .tc main_arg2) (mem_uc main_arg2 (by decide))).trans (X12_arg m c _ (by decide)),
        (h (Proc.devRef .tc main_arg3) (mem_uc main_arg3 (by decide))).trans (X12_arg m c _ (by decide)),
        (h (Proc.devRef .tc main_arg4) (mem_uc main_arg4 (by decide))).trans (X12_arg m c _ (by decide))⟩
    · iexact HSI

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => (h c).2) (run_main m ρ)

end Cert.KernelIdeal.Hand

end
-- ==== Proof.Spec.lean ====
import Idealize.ShloMosaic.PureOps.Ideal
import Idealize.ShloMosaic.Lib.ValueIdx

noncomputable section

namespace Cert.Spec

open Idealize.ShloMosaic Idealize.ShloMosaic.ValueIdx

abbrev SX : Shape := ⟨2, ![8192, 2048]⟩

abbrev SW : Shape := ⟨2, ![2048, 2048]⟩

abbrev SV : Shape := ⟨1, ![2048]⟩

abbrev SR : Shape := ⟨2, ![1, 2048]⟩

def lo : EReal := Ideal.ofBits .f32 0xC3000000#32

def hi : EReal := Ideal.ofBits .f32 0x42FFFE00#32

def sc : EReal := Ideal.ofBits .f32 0x43800000#32

def eps : EReal := Ideal.ofBits .f32 0x3727C5AC#32

def invN : EReal := Ideal.ofBits .f32 0x39000000#32

def nRows : EReal := Ideal.ofBits .f32 0x46000000#32

def clip (t : EReal) : EReal := min hi (max lo t)

def q (t : EReal) : EReal := Ideal.div (Ideal.liftRound Ideal.roundHalfEven (clip t * sc)) sc

def qst (t : EReal) : EReal := clip t + (q t - clip t)

def Q {s : Shape} (v : s.Idx → EReal) : s.Idx → EReal := fun i => q (v i)
def Qst {s : Shape} (v : s.Idx → EReal) : s.Idx → EReal := fun i => qst (v i)

def row (v : SV.Idx → EReal) : SR.Idx → EReal := fun i => v (ix1 (i 1))

def lin (x : SX.Idx → EReal) (w : SW.Idx → EReal) (p : Fin 8192) (j : Fin 2048) : EReal :=
  ∑ a : Fin 2048, x (ix2 p a) * w (ix2 j a)

def Y0 (x : SX.Idx → EReal) (w : SW.Idx → EReal) (b2 : SR.Idx → EReal) : SX.Idx → EReal :=
  fun i => q (q (lin x w (i 0) (i 1)) + b2 (ix2 0 (i 1)))

def colSum (y : SX.Idx → EReal) (j : Fin 2048) : EReal := ∑ p : Fin 8192, y (ix2 p j)
def colSumSq (y : SX.Idx → EReal) (j : Fin 2048) : EReal := ∑ p : Fin 8192, y (ix2 p j) * y (ix2 p j)

def meanK (y : SX.Idx → EReal) (j : Fin 2048) : EReal := colSum y j * invN
def varK (y : SX.Idx → EReal) (j : Fin 2048) : EReal := colSumSq y j * invN - meanK y j * meanK y j
def Mean2 (y : SX.Idx → EReal) : SR.Idx → EReal := fun i => meanK y (i 1)
def Var2 (y : SX.Idx → EReal) : SR.Idx → EReal := fun i => varK y (i 1)

def norm (yv mu va g b : EReal) : EReal := q (g * ((yv - mu) * Ideal.rsqrt (va + eps)) + b)
def Out2 (y : SX.Idx → EReal) (mu va g2 b2 : SR.Idx → EReal) : SX.Idx → EReal :=
  fun i => norm (y i) (mu (ix2 0 (i 1))) (va (ix2 0 (i 1))) (g2 (ix2 0 (i 1))) (b2 (ix2 0 (i 1)))

def K (x : SX.Idx → EReal) (w : SW.Idx → EReal) (b g β : SV.Idx → EReal) : SX.Idx → EReal :=
  Out2 (Y0 x (Q w) (row (Q b))) (Mean2 (Y0 x (Q w) (row (Q b)))) (Var2 (Y0 x (Q w) (row (Q b)))) (row g) (row β)

def YR (x : SX.Idx → EReal) (w : SW.Idx → EReal) (b : SV.Idx → EReal) : SX.Idx → EReal :=
  fun i => qst (qst (lin x (Qst w) (i 0) (i 1)) + qst (b (ix1 (i 1))))

def meanR (y : SX.Idx → EReal) (j : Fin 2048) : EReal := Ideal.div (colSum y j) nRows
def varR (y : SX.Idx → EReal) (j : Fin 2048) : EReal :=
  Ideal.div (∑ p : Fin 8192, (y (ix2 p j) - meanR y j) * (y (ix2 p j) - meanR y j)) nRows
def normR (yv mu va g b : EReal) : EReal := qst (g * ((yv - mu) * Ideal.rsqrt (va + eps)) + b)

def R (x : SX.Idx → EReal) (w : SW.Idx → EReal) (b g β : SV.Idx → EReal) : SX.Idx → EReal :=
  fun i => normR (YR x w b i) (meanR (YR x w b) (i 1)) (varR (YR x w b) (i 1)) (g (ix1 (i 1))) (β (ix1 (i 1)))

end Cert.Spec

end
-- ==== Proof.Value.R0.lean ====
import proofs.«128430_j57578331570847_1_alg».proof.Proof.KernelIdeal.R0Frame
import proofs.«128430_j57578331570847_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val0

open Cert.KernelIdeal Cert.KernelIdeal.Gen Cert.KernelIdeal.Hand
open Idealize.ShloMosaic Idealize.ShloMosaic.TcCoe Idealize.ShloMosaic.Tactic Idealize.SL.Sem
open Idealize.ShloMosaic.ValueIdx
open Idealize.ShloMosaic.Pipeline (Dat)

section Pieces
variable {F : FTy → Type} [FloatOps F]
variable (c : Dev nD) (i : grid0.Coords) (arg2 : Memref sig .tc .vmem S512x512 .f32) (harg2 : arg2.IsWhole) (arg3 : Memref sig .tc .vmem S2048x512 .f32) (harg3 : arg3.IsWhole) (arg4 : Memref sig .tc .vmem S1x2048 .f32) (harg4 : arg4.IsWhole) (arg5 : Memref sig .tc .vmem S512x2048 .f32) (harg5 : arg5.IsWhole) (arg6 : Memref sig .tc .vmem S512x2048 .f32) (harg6 : arg6.IsWhole)

theorem hz : (![0, 0] : Fin 2 → Nat) = fun _ => 0 := funext fun a => by fin_cases a <;> rfl

theorem sout_A (hc0 : cond0_0 i) (hc1 : ¬cond0_1 i) (x0 : Vec F S512x512 .f32) (x1 : Vec F S2048x512 .f32) (x2 : Vec F S1x2048 .f32) :
    sout0_A_0 c i arg2 harg2 arg3 harg3 arg4 harg4 arg5 harg5 arg6 harg6 hc0 hc1 x0 x1 x2 = k0_pay2 x0 x1 (k0_pay1 (F := F)) := by
  unfold sout0_A_0
  rw [View.read_writes_eq_canon _ _ _ (scover0_A_0 c i arg2 harg2 arg3 harg3 arg4 harg4 arg5 harg5 arg6 harg6 hc0 hc1 x0 x1 x2)]
  unfold kernelRun0_A
  dsimp only
  sl_unfold_words
  rw [View.canon_cons_unit_zero (S := S512x2048) hz, View.readCov_unit_zero (S := S512x2048) _ hz]
  simp only [View.readAt_eq_ld, harg2.read_unread, harg3.read_unread, harg4.read_unread, harg6.read_unread, View.ld_unit_zero (S := S512x512) hz, View.ld_unit_zero (S := S2048x512) hz, View.ld_unit_zero (S := S1x2048) hz, View.ld_unit_zero (S := S512x2048) hz]

theorem sout_B (hc0 : ¬cond0_0 i) (hc1 : ¬cond0_1 i) (x0 : Vec F S512x512 .f32) (x1 : Vec F S2048x512 .f32) (x2 : Vec F S1x2048 .f32) (xs0 : Vec F S512x2048 .f32) :
    sout0_B_0 c i arg2 harg2 arg3 harg3 arg4 harg4 arg5 harg5 arg6 harg6 hc0 hc1 x0 x1 x2 xs0 = k0_pay2 x0 x1 xs0 := by
  unfold sout0_B_0
  rw [View.read_writes_eq_canon _ _ _ (scover0_B_0 c i arg2 harg2 arg3 harg3 arg4 harg4 arg5 harg5 arg6 harg6 hc0 hc1 x0 x1 x2 xs0)]
  unfold kernelRun0_B
  dsimp only
  sl_unfold_words
  rw [View.canon_unit_zero hz]
  simp only [View.readAt_eq_ld, harg2.read_unread, harg3.read_unread, harg4.read_unread, harg6.read_unread, View.ld_unit_zero (S := S512x512) hz, View.ld_unit_zero (S := S2048x512) hz, View.ld_unit_zero (S := S1x2048) hz, View.ld_unit_zero (S := S512x2048) hz]

theorem sout_C (hc0 : ¬cond0_0 i) (hc1 : cond0_1 i) (x0 : Vec F S512x512 .f32) (x1 : Vec F S2048x512 .f32) (x2 : Vec F S1x2048 .f32) (xs0 : Vec F S512x2048 .f32) :
    sout0_C_0 c i arg2 harg2 arg3 harg3 arg4 harg4 arg5 harg5 arg6 harg6 hc0 hc1 x0 x1 x2 xs0 = k0_pay2 x0 x1 xs0 := by
  unfold sout0_C_0
  rw [View.read_writes_eq_canon _ _ _ (scover0_C_0 c i arg2 harg2 arg3 harg3 arg4 harg4 arg5 harg5 arg6 harg6 hc0 hc1 x0 x1 x2 xs0)]
  unfold kernelRun0_C
  dsimp only
  sl_unfold_words
  rw [View.canon_unit_zero hz]
  simp only [View.readAt_eq_ld, harg2.read_unread, harg3.read_unread, harg4.read_unread, harg6.read_unread, View.ld_unit_zero (S := S512x512) hz, View.ld_unit_zero (S := S2048x512) hz, View.ld_unit_zero (S := S1x2048) hz, View.ld_unit_zero (S := S512x2048) hz]

theorem out_C (hc0 : ¬cond0_0 i) (hc1 : cond0_1 i) (x0 : Vec F S512x512 .f32) (x1 : Vec F S2048x512 .f32) (x2 : Vec F S1x2048 .f32) (xs0 : Vec F S512x2048 .f32) :
    out0_C_3 c i arg2 harg2 arg3 harg3 arg4 harg4 arg5 harg5 arg6 harg6 hc0 hc1 x0 x1 x2 xs0 = k0_pay3 (k0_pay2 x0 x1 xs0) x2 := by
  unfold out0_C_3
  rw [View.read_writes_eq_canon _ _ _ (cover0_C_3 c i arg2 harg2 arg3 harg3 arg4 harg4 arg5 harg5 arg6 harg6 hc0 hc1 x0 x1 x2 xs0)]
  unfold kernelRun0_C
  dsimp only
  sl_unfold_words
  rw [View.canon_unit_zero hz]
  simp only [View.readAt_eq_ld, harg2.read_unread, harg3.read_unread, harg4.read_unread, harg6.read_unread, View.ld_unit_zero (S := S512x512) hz, View.ld_unit_zero (S := S2048x512) hz, View.ld_unit_zero (S := S1x2048) hz, View.ld_unit_zero (S := S512x2048) hz, View.readCov_unit_zero (S := S512x2048) _ hz]

end Pieces

theorem contraction_ix2T {M K N : Nat} (D : DotDims ⟨2, ![M, K]⟩ ⟨2, ![N, K]⟩ ⟨2, ![M, N]⟩)
    (hr : D.contr.rank = 1) (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (i 1).val)
    (hr1 : ∀ i q, (D.rhsIdx i q 1).val = (q ⟨0, by omega⟩).val)
    (l : (⟨2, ![M, K]⟩ : Shape).Idx → EReal) (r : (⟨2, ![N, K]⟩ : Shape).Idx → EReal) (p : Fin M) (j : Fin N) :
    ∑ k : D.contr.Idx, l (D.lhsIdx (ix2 p j) k) * r (D.rhsIdx (ix2 p j) k) = ∑ a : Fin K, l (ix2 p a) * r (ix2 j a) := by
  rw [← Equiv.sum_comp (contrEquiv1 D K hr hs).symm]
  refine Finset.sum_congr rfl fun a _ => ?_
  have hk := contrEquiv1_symm_val D K hr hs a
  have el : D.lhsIdx (ix2 p j) ((contrEquiv1 D K hr hs).symm a) = ix2 p a := funext fun d => Fin.ext (by
    match d with
    | ⟨0, _⟩ => exact hl0 _ _
    | ⟨1, _⟩ => exact (hl1 _ _).trans hk)
  have er : D.rhsIdx (ix2 p j) ((contrEquiv1 D K hr hs).symm a) = ix2 j a := funext fun d => Fin.ext (by
    match d with
    | ⟨0, _⟩ => exact hr0 _ _
    | ⟨1, _⟩ => exact (hr1 _ _).trans hk)
  rw [el, er]

theorem matmul_zero_ix2T {M K N : Nat} {φ₁ φ₂ : FTy} (D : DotDims ⟨2, ![M, K]⟩ ⟨2, ![N, K]⟩ ⟨2, ![M, N]⟩)
    (prec : Option ContractPrecision)
    (hr : D.contr.rank = 1) (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (i 1).val)
    (hr1 : ∀ i q, (D.rhsIdx i q 1).val = (q ⟨0, by omega⟩).val)
    (l : FVec Ideal ⟨2, ![M, K]⟩ φ₁) (r : FVec Ideal ⟨2, ![N, K]⟩ φ₂) (p : Fin M) (j : Fin N) :
    matmul D prec l r (constant (F := Ideal) ⟨2, ![M, N]⟩ .f32 0x00000000#32) (ix2 p j)
      = ∑ a : Fin K, l (ix2 p a) * r (ix2 j a) := by
  show FloatOps.matmul D prec l r (constant (F := Ideal) ⟨2, ![M, N]⟩ .f32 0x00000000#32) (ix2 p j) = _
  rw [Ideal.matmul_constant_zero_apply]
  exact contraction_ix2T D hr hs hl0 hl1 hr0 hr1 l r p j

abbrev D0 : DotDims S512x512 S2048x512 S512x2048 := dot_S512x512_S2048x512_S512x2048_1_1_0_0_n_n

theorem D0_rank : D0.contr.rank = 1 := rfl
theorem D0_size : D0.contr.size ⟨0, by rw [D0_rank]; omega⟩ = 512 := rfl
theorem D0_l0 (i : S512x2048.Idx) (q : D0.contr.Idx) : (D0.lhsIdx i q 0).val = (i 0).val := by
  simp [DotDims.lhsIdx, D0, dot_S512x512_S2048x512_S512x2048_1_1_0_0_n_n] <;> rfl
theorem D0_l1 (i : S512x2048.Idx) (q : D0.contr.Idx) : (D0.lhsIdx i q 1).val = (q ⟨0, by rw [D0_rank]; omega⟩).val := by
  simp [DotDims.lhsIdx, D0, dot_S512x512_S2048x512_S512x2048_1_1_0_0_n_n] <;> rfl
theorem D0_r0 (i : S512x2048.Idx) (q : D0.contr.Idx) : (D0.rhsIdx i q 0).val = (i 1).val := by
  simp [DotDims.rhsIdx, D0, dot_S512x512_S2048x512_S512x2048_1_1_0_0_n_n] <;> rfl
theorem D0_r1 (i : S512x2048.Idx) (q : D0.contr.Idx) : (D0.rhsIdx i q 1).val = (q ⟨0, by rw [D0_rank]; omega⟩).val := by
  simp [DotDims.rhsIdx, D0, dot_S512x512_S2048x512_S512x2048_1_1_0_0_n_n] <;> rfl

theorem pay1_apply (p : Fin 512) (j : Fin 2048) : k0_pay1 (F := Ideal) (ix2 p j) = 0 := by
  unfold k0_pay1
  simp only [shapeCast_self]
  exact Ideal.ofBits_zero_f32

theorem pay2_apply (v3 : Vec Ideal S512x512 .f32) (v5 : Vec Ideal S2048x512 .f32) (v8 : Vec Ideal S512x2048 .f32)
    (p : Fin 512) (j : Fin 2048) :
    k0_pay2 v3 v5 v8 (ix2 p j) = v8 (ix2 p j) + ∑ a : Fin 512, v3 (ix2 p a) * v5 (ix2 j a) := by
  unfold k0_pay2
  simp only [shapeCast_self]
  exact congrArg (v8 (ix2 p j) + ·) (matmul_zero_ix2T D0 none D0_rank D0_size D0_l0 D0_l1 D0_r0 D0_r1 _ _ p j)

theorem pay3_apply (v17 : Vec Ideal S512x2048 .f32) (v27 : Vec Ideal S1x2048 .f32) (p : Fin 512) (j : Fin 2048) :
    k0_pay3 v17 v27 (ix2 p j) = Cert.Spec.q (Cert.Spec.q (v17 (ix2 p j)) + v27 (ix2 (0 : Fin 1) j)) := by
  unfold k0_pay3
  simp only [shapeCast_self]
  exact congrArg (fun z => Cert.Spec.q (Cert.Spec.q (v17 (ix2 p j)) + z)) (broadcastTo_1b_ab_apply v27 _ p j)

theorem idx0_0 : ∀ t : Fin cfg0.N, win0_0.index t 0 = t.val / 4 ∧ win0_0.index t 1 = t.val % 4 :=
  (by decide +kernel : ∀ t : Fin grid0.N, win0_0.index t 0 = t.val / 4 ∧ win0_0.index t 1 = t.val % 4)
theorem idx0_1 : ∀ t : Fin cfg0.N, win0_1.index t 0 = 0 ∧ win0_1.index t 1 = t.val % 4 :=
  (by decide +kernel : ∀ t : Fin grid0.N, win0_1.index t 0 = 0 ∧ win0_1.index t 1 = t.val % 4)
theorem idx0_2 : ∀ t : Fin cfg0.N, win0_2.index t 0 = 0 ∧ win0_2.index t 1 = 0 :=
  (by decide +kernel : ∀ t : Fin grid0.N, win0_2.index t 0 = 0 ∧ win0_2.index t 1 = 0)
theorem idx0_3 : ∀ t : Fin cfg0.N, win0_3.index t 0 = t.val / 4 ∧ win0_3.index t 1 = 0 :=
  (by decide +kernel : ∀ t : Fin grid0.N, win0_3.index t 0 = t.val / 4 ∧ win0_3.index t 1 = 0)

section Ideal
variable (V : (c : Dev nD) → (b : Ref sig .tc) → Buf (Elt Ideal) ((c : Thread nD τ).loc b))

abbrev xarr (c : Dev nD) : Vec Ideal S8192x2048 .f32 := V c main_arg0
abbrev warr (c : Dev nD) : Vec Ideal S2048x2048 .f32 := V c main_v5
abbrev barr (c : Dev nD) : Vec Ideal S1x2048 .f32 := V c main_v12
abbrev xblk (c : Dev nD) (t : Fin cfg0.N) : Vec Ideal S512x512 .f32 := iblk0 V c 0 t
abbrev wblk (c : Dev nD) (t : Fin cfg0.N) : Vec Ideal S2048x512 .f32 := iblk0 V c 1 t
abbrev bblk (c : Dev nD) (t : Fin cfg0.N) : Vec Ideal S1x2048 .f32 := iblk0 V c 2 t

theorem xblk_apply (c : Dev nD) (t : Fin cfg0.N) (p a : Fin 512) :
    xblk V c t (ix2 p a) = xarr V c (ix2 (⟨512 * (t.val / 4) + p.val, by have := t.isLt; have hN : cfg0.N = 64 := N_0; have := p.isLt; omega⟩ : Fin 8192) (⟨512 * (t.val % 4) + a.val, by have := t.isLt; have hN : cfg0.N = 64 := N_0; have := a.isLt; omega⟩ : Fin 2048)) := by
  have hi := idx0_0 t
  unfold xblk xarr iblk0
  rw [View.read_apply]
  show V c main_arg0 _ = V c main_arg0 _
  congr 1
  funext ax
  apply Fin.ext
  match ax with
  | ⟨0, _⟩ => show win0_0.index t 0 * 512 + 1 * p.val = 512 * (t.val / 4) + p.val; rw [hi.1]; omega
  | ⟨1, _⟩ => show win0_0.index t 1 * 512 + 1 * a.val = 512 * (t.val % 4) + a.val; rw [hi.2]; omega

theorem wblk_apply (c : Dev nD) (t : Fin cfg0.N) (j : Fin 2048) (a : Fin 512) :
    wblk V c t (ix2 j a) = warr V c (ix2 j (⟨512 * (t.val % 4) + a.val, by have := t.isLt; have hN : cfg0.N = 64 := N_0; have := a.isLt; omega⟩ : Fin 2048)) := by
  have hi := idx0_1 t
  unfold wblk warr iblk0
  rw [View.read_apply]
  show V c main_v5 _ = V c main_v5 _
  congr 1
  funext ax
  apply Fin.ext
  match ax with
  | ⟨0, _⟩ => show win0_1.index t 0 * 2048 + 1 * j.val = j.val; rw [hi.1]; omega
  | ⟨1, _⟩ => show win0_1.index t 1 * 512 + 1 * a.val = 512 * (t.val % 4) + a.val; rw [hi.2]; omega

theorem bblk_apply (c : Dev nD) (t : Fin cfg0.N) (j : Fin 2048) :
    bblk V c t (ix2 (0 : Fin 1) j) = barr V c (ix2 (0 : Fin 1) j) := by
  have hi := idx0_2 t
  unfold bblk barr iblk0
  rw [View.read_apply]
  show V c main_v12 _ = V c main_v12 _
  congr 1
  funext ax
  apply Fin.ext
  match ax with
  | ⟨0, _⟩ => show win0_2.index t 0 * 1 + 1 * 0 = 0; rw [hi.1]
  | ⟨1, _⟩ => show win0_2.index t 1 * 2048 + 1 * j.val = j.val; rw [hi.2]; omega

def bp (c : Dev nD) (t : Fin cfg0.N) (p : Fin 512) (j : Fin 2048) : EReal :=
  ∑ a : Fin 512, xblk V c t (ix2 p a) * wblk V c t (ix2 j a)

def bpn (c : Dev nD) (s : ℕ) (p : Fin 512) (j : Fin 2048) : EReal :=
  if hs : s < cfg0.N then bp V c ⟨s, hs⟩ p j else 0

theorem bpn_of_lt (c : Dev nD) (s : ℕ) (hs : s < cfg0.N) (p : Fin 512) (j : Fin 2048) : bpn V c s p j = bp V c ⟨s, hs⟩ p j :=
  dif_pos hs

theorem acc_A (c : Dev nD) (t : Fin cfg0.N) (h0 : t.val % 4 = 0) (h1 : ¬t.val % 4 = 3) (p : Fin 512) (j : Fin 2048) :
    (outsAt0 V c t.val t.isLt).2 (ix2 p j) = bp V c t p j := by
  rw [outsAt0_A V c t h0 h1]; dsimp only
  refine (congrFun (sout_A (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk0 V c 0 t) (iblk0 V c 1 t) (iblk0 V c 2 t)) (ix2 p j)).trans ?_
  rw [pay2_apply, pay1_apply, zero_add]
  rfl

theorem acc_B (c : Dev nD) (t : Fin cfg0.N) (h0 : ¬t.val % 4 = 0) (h1 : ¬t.val % 4 = 3) (p : Fin 512) (j : Fin 2048) :
    (outsAt0 V c t.val t.isLt).2 (ix2 p j) = (outsAt0 V c (t.val - 1) (Nat.lt_of_le_of_lt (Nat.sub_le _ _) t.isLt)).2 (ix2 p j) + bp V c t p j := by
  rw [outsAt0_B V c t h0 h1]; dsimp only
  refine (congrFun (sout_B (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2) (ix2 p j)).trans ?_
  rw [pay2_apply]
  rfl

theorem acc_C (c : Dev nD) (t : Fin cfg0.N) (h0 : ¬t.val % 4 = 0) (h1 : t.val % 4 = 3) (p : Fin 512) (j : Fin 2048) :
    (outsAt0 V c t.val t.isLt).2 (ix2 p j) = (outsAt0 V c (t.val - 1) (Nat.lt_of_le_of_lt (Nat.sub_le _ _) t.isLt)).2 (ix2 p j) + bp V c t p j := by
  rw [outsAt0_C V c t h0 h1]; dsimp only
  refine (congrFun (sout_C (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2) (ix2 p j)).trans ?_
  rw [pay2_apply]
  rfl

theorem acc_eq (c : Dev nD) (p : Fin 512) (j : Fin 2048) : ∀ (n : ℕ) (h : n < cfg0.N),
    (outsAt0 V c n h).2 (ix2 p j) = ∑ b ∈ Finset.range (n % 4 + 1), bpn V c (4 * (n / 4) + b) p j
  | 0, h => by
    rw [acc_A V c ⟨0, h⟩ rfl (by dsimp only; omega) p j]
    show _ = ∑ b ∈ Finset.range 1, bpn V c (4 * (0 / 4) + b) p j
    rw [Finset.sum_range_one]
    exact (bpn_of_lt V c 0 h p j).symm
  | n + 1, h => by
    by_cases h0 : (n + 1) % 4 = 0
    · rw [acc_A V c ⟨n + 1, h⟩ h0 (by dsimp only; omega) p j, h0]
      show _ = ∑ b ∈ Finset.range 1, bpn V c (4 * ((n + 1) / 4) + b) p j
      rw [Finset.sum_range_one, show 4 * ((n + 1) / 4) + 0 = n + 1 from by omega]
      exact (bpn_of_lt V c (n + 1) h p j).symm
    · have hstep : (outsAt0 V c (n + 1) h).2 (ix2 p j)
          = (outsAt0 V c n (Nat.lt_of_succ_lt h)).2 (ix2 p j) + bp V c ⟨n + 1, h⟩ p j := by
        by_cases h1 : (n + 1) % 4 = 3
        · exact acc_C V c ⟨n + 1, h⟩ h0 h1 p j
        · exact acc_B V c ⟨n + 1, h⟩ h0 h1 p j
      rw [hstep]
      rw [show (n + 1) % 4 + 1 = (n % 4 + 1) + 1 from by omega, Finset.sum_range_succ,
        show (n + 1) / 4 = n / 4 from by omega, show 4 * (n / 4) + (n % 4 + 1) = n + 1 from by omega,
        bpn_of_lt V c (n + 1) h p j, acc_eq c p j n (Nat.lt_of_succ_lt h)]

theorem ix2_congr {m n : Nat} {a a' : Fin m} {b b' : Fin n} (ha : a.val = a'.val) (hb : b.val = b'.val) : ix2 a b = ix2 a' b' := by
  obtain rfl := Fin.ext ha; obtain rfl := Fin.ext hb; rfl

theorem sum_four_blocks (f : Fin 2048 → EReal) :
    ∑ a : Fin 2048, f a = ∑ b : Fin 4, ∑ a : Fin 512, f (⟨512 * b.val + a.val, by have := b.isLt; have := a.isLt; omega⟩ : Fin 2048) := by
  rw [← Fintype.sum_prod_type']
  refine (Fintype.sum_equiv (finProdFinEquiv (m := 4) (n := 512)) _ _ fun x => ?_).symm
  refine congrArg f (Fin.ext ?_)
  show 512 * x.1.val + x.2.val = x.2.val + 512 * x.1.val
  omega

theorem sum_bp (c : Dev nD) (t : Fin cfg0.N) (h1 : t.val % 4 = 3) (p : Fin 512) (j : Fin 2048) :
    ∑ b ∈ Finset.range (t.val % 4 + 1), bpn V c (4 * (t.val / 4) + b) p j
      = Cert.Spec.lin (xarr V c) (warr V c) (⟨512 * (t.val / 4) + p.val, by have := t.isLt; have hN : cfg0.N = 64 := N_0; have := p.isLt; omega⟩ : Fin 8192) j := by
  have hN : cfg0.N = 64 := N_0
  have ht := t.isLt
  unfold Cert.Spec.lin
  rw [h1, Finset.sum_range, sum_four_blocks]
  refine Finset.sum_congr rfl fun b _ => ?_
  have hb := b.isLt
  have hlt : 4 * (t.val / 4) + b.val < cfg0.N := by omega
  rw [bpn_of_lt V c _ hlt p j]
  unfold bp
  refine Finset.sum_congr rfl fun a _ => ?_
  rw [xblk_apply, wblk_apply]
  refine congrArg₂ (· * ·) (congrArg (xarr V c) (ix2_congr ?_ ?_)) (congrArg (warr V c) (ix2_congr rfl ?_))
  all_goals dsimp only; omega

theorem oblk_apply (c : Dev nD) (t : Fin cfg0.N) (G : Buf (Elt Ideal) ((c : Thread nD τ).loc main_v15)) (p : Fin 512) (j : Fin 2048) :
    ((cfg0.win 3).blk t).view.read (Elt Ideal) G (ix2 p j)
      = G (ix2 (⟨512 * (t.val / 4) + p.val, by have := t.isLt; have hN : cfg0.N = 64 := N_0; have := p.isLt; omega⟩ : Fin 8192) j) := by
  have hi := idx0_3 t
  rw [View.read_apply]
  show G _ = G _
  congr 1
  funext ax
  apply Fin.ext
  match ax with
  | ⟨0, _⟩ => show win0_3.index t 0 * 512 + 1 * p.val = 512 * (t.val / 4) + p.val; rw [hi.1]; omega
  | ⟨1, _⟩ => show win0_3.index t 1 * 2048 + 1 * j.val = j.val; rw [hi.2]; omega

theorem out_at_C (c : Dev nD) (t : Fin cfg0.N) (h0 : ¬t.val % 4 = 0) (h1 : t.val % 4 = 3) (p : Fin 512) (j : Fin 2048) :
    (outsAt0 V c t.val t.isLt).1 (ix2 p j)
      = Cert.Spec.q (Cert.Spec.q ((outsAt0 V c t.val t.isLt).2 (ix2 p j)) + barr V c (ix2 (0 : Fin 1) j)) := by
  rw [outsAt0_C V c t h0 h1]; dsimp only
  rw [out_C (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2,
    sout_C (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2]
  rw [pay3_apply]
  exact congrArg (fun z => Cert.Spec.q (Cert.Spec.q (k0_pay2 (iblk0 V c 0 t) (iblk0 V c 1 t) (outsAt0 V c (t.val - 1) (Nat.lt_of_le_of_lt (Nat.sub_le _ _) t.isLt)).2 (ix2 p j)) + z)) (bblk_apply V c t j)

theorem flushed_eq (c : Dev nD) (t : Fin cfg0.N) (hf : (cfg0.win 3).flush t = true) :
    (dat0 V c).flushed 3 t = ((cfg0.win 3).blk t).view.read (Elt Ideal) (Cert.Spec.Y0 (xarr V c) (warr V c) (barr V c)) := by
  have h1 : t.val % 4 = 3 := (flush0_3 t).mp hf
  have h0 : ¬t.val % 4 = 0 := by omega
  show (cfg0.win 3).cut (grid0.coords t) ((dat0 V c).after 3 t) = _
  rw [after0_3]
  funext y
  obtain ⟨p, j, rfl⟩ : ∃ (p : Fin 512) (j : Fin 2048), y = ix2 p j := ⟨y 0, y 1, eq_ix2 y⟩
  show (outsAt0 V c t.val t.isLt).1 (ix2 p j) = _
  rw [out_at_C V c t h0 h1 p j, acc_eq V c p j t.val t.isLt, sum_bp V c t h1 p j, oblk_apply c t _ p j]
  rfl

theorem cover3 (c : Dev nD) (i : ((cfg0.win 3).arr.view.loc (c.tc : Thread nD τ)).2.ty.Idx) :
    ∃ t : Fin cfg0.N, (cfg0.win 3).flush t = true ∧ i ∈ ((cfg0.win 3).blk t).view.set := by
  have hN : cfg0.N = 64 := N_0
  have hi0 : (i 0 : ℕ) < 8192 := (i 0).isLt
  have hi1 : (i 1 : ℕ) < 2048 := (i 1).isLt
  have hlt : 4 * ((i 0 : ℕ) / 512) + 3 < cfg0.N := by omega
  refine ⟨⟨4 * ((i 0 : ℕ) / 512) + 3, hlt⟩, (flush0_3 _).mpr (by dsimp only; omega), ?_⟩
  have hx := idx0_3 ⟨4 * ((i 0 : ℕ) / 512) + 3, hlt⟩
  show i ∈ ((View.whole main_v15).slice (win0_3.rect ⟨4 * ((i 0 : ℕ) / 512) + 3, hlt⟩)).set
  rw [View.set_slice_whole, Rect.mem_set_unit]
  intro a
  match a with
  | ⟨0, _⟩ =>
    show win0_3.index ⟨4 * ((i 0 : ℕ) / 512) + 3, hlt⟩ 0 * 512 ≤ (i 0 : Nat) ∧ (i 0 : Nat) < win0_3.index ⟨4 * ((i 0 : ℕ) / 512) + 3, hlt⟩ 0 * 512 + 512
    rw [hx.1]; dsimp only; omega
  | ⟨1, _⟩ =>
    show win0_3.index ⟨4 * ((i 0 : ℕ) / 512) + 3, hlt⟩ 1 * 2048 ≤ (i 1 : Nat) ∧ (i 1 : Nat) < win0_3.index ⟨4 * ((i 0 : ℕ) / 512) + 3, hlt⟩ 1 * 2048 + 2048
    rw [hx.2]; omega

theorem arr0 (c : Dev nD) :
    (dat0 V c).arrAt 3 cfg0.N = Cert.Spec.Y0 (V c main_arg0) (V c main_v5) (V c main_v12) :=
  (dat0 V c).arrAt_eq_of_cover 3 (Cert.Spec.Y0 (V c main_arg0) (V c main_v5) (V c main_v12)) (flushed_eq V c) (cover3 c)

end Ideal

end Cert.KernelIdeal.Val0

end
-- ==== Proof.Value.R1.lean ====
import proofs.«128430_j57578331570847_1_alg».proof.Proof.KernelIdeal.R1Frame
import proofs.«128430_j57578331570847_1_alg».proof.Proof.Spec
import Idealize.ShloMosaic.Lib.Pipeline.Value
import Idealize.ShloMosaic.Lib.ValueIdx
import Idealize.ShloMosaic.Lib.ValueLayout
import Idealize.ShloMosaic.PureOps.Ideal.Laws
import Mathlib.Algebra.BigOperators.Intervals
import Mathlib.Algebra.BigOperators.Fin

set_option maxRecDepth 16384

noncomputable section

namespace Cert.KernelIdeal.Val1

open Cert.KernelIdeal Cert.KernelIdeal.Gen Cert.KernelIdeal.Hand
open Idealize.ShloMosaic Idealize.ShloMosaic.TcCoe Idealize.ShloMosaic.Tactic Idealize.ShloMosaic.ValueIdx
open Idealize.SL.Sem
open Idealize.ShloMosaic.Pipeline (Dat)

theorem hz : (![0, 0] : Fin 2 → Nat) = fun _ => 0 := funext fun a => by fin_cases a <;> rfl

theorem pay1_apply (u : Fin 1) (j : Fin 2048) : (k1_pay1 (F := Ideal)) (ix2 u j) = 0 := by
  unfold k1_pay1
  refine (congrFun (shapeCast_self _ _) _).trans ?_
  exact Ideal.ofBits_zero_f32

theorem pay2_apply (u : Fin 1) (j : Fin 2048) : (k1_pay2 (F := Ideal)) (ix2 u j) = 0 := by
  unfold k1_pay2
  refine (congrFun (shapeCast_self _ _) _).trans ?_
  exact Ideal.ofBits_zero_f32

theorem colsum_apply (x : FVec Ideal S512x2048 .f32) (j : Fin 2048) :
    multiReduction .add [0] S2048 x 0x00000000#32 reduces_S512x2048_S2048 (.inl rfl) rfl (ix1 j) = ∑ r : Fin 512, x (ix2 r j) := by
  refine (Ideal.multiReduction_add_single x 0x00000000#32 reduces_S512x2048_S2048 (.inl rfl) rfl (ix1 j)).trans ?_
  exact Finset.sum_congr rfl fun r _ => congrArg x (funext fun a => Fin.ext (match a with | ⟨0, _⟩ => rfl | ⟨1, _⟩ => rfl))

theorem pay4_apply (x : FVec Ideal S512x2048 .f32) (a : FVec Ideal S1x2048 .f32) (u : Fin 1) (j : Fin 2048) :
    k1_pay4 x a (ix2 u j) = a (ix2 u j) + ∑ r : Fin 512, x (ix2 r j) := by
  unfold k1_pay4 k1_pay3
  refine (congrFun (shapeCast_self _ _) _).trans ?_
  refine congrArg (a (ix2 u j) + ·) ?_
  refine (shapeCast_a_1a_apply _ _ u j).trans ?_
  refine (colsum_apply _ j).trans ?_
  exact Finset.sum_congr rfl fun r _ => congrFun (shapeCast_self x _) _

theorem pay5_apply (x : FVec Ideal S512x2048 .f32) (a : FVec Ideal S1x2048 .f32) (u : Fin 1) (j : Fin 2048) :
    k1_pay5 x a (ix2 u j) = a (ix2 u j) + ∑ r : Fin 512, x (ix2 r j) * x (ix2 r j) := by
  unfold k1_pay5 k1_pay3
  refine (congrFun (shapeCast_self _ _) _).trans ?_
  refine congrArg (a (ix2 u j) + ·) ?_
  refine (shapeCast_a_1a_apply _ _ u j).trans ?_
  refine (colsum_apply _ j).trans ?_
  exact Finset.sum_congr rfl fun r _ => by
    show shapeCast S512x2048 x _ (ix2 r j) * shapeCast S512x2048 x _ (ix2 r j) = _
    rw [congrFun (shapeCast_self x _) (ix2 r j)]

theorem pay6_apply (s : FVec Ideal S1x2048 .f32) (u : Fin 1) (j : Fin 2048) :
    k1_pay6 s (ix2 u j) = s (ix2 u j) * Cert.Spec.invN := rfl

theorem pay7_apply (s q : FVec Ideal S1x2048 .f32) (u : Fin 1) (j : Fin 2048) :
    k1_pay7 s q (ix2 u j) = q (ix2 u j) * Cert.Spec.invN - (s (ix2 u j) * Cert.Spec.invN) * (s (ix2 u j) * Cert.Spec.invN) := rfl

def col (y : Cert.Spec.SX.Idx → EReal) (j : Fin 2048) (p : ℕ) : EReal :=
  if h : p < 8192 then y (ix2 ⟨p, h⟩ j) else 0

theorem col_of_lt (y : Cert.Spec.SX.Idx → EReal) (j : Fin 2048) (p : Fin 8192) : col y j p.val = y (ix2 p j) := by
  unfold col; rw [dif_pos p.isLt]

theorem colSum_eq_range (y : Cert.Spec.SX.Idx → EReal) (j : Fin 2048) :
    Cert.Spec.colSum y j = ∑ p ∈ Finset.range 8192, col y j p := by
  unfold Cert.Spec.colSum
  rw [Finset.sum_range]
  exact Finset.sum_congr rfl fun p _ => (col_of_lt y j p).symm

theorem colSumSq_eq_range (y : Cert.Spec.SX.Idx → EReal) (j : Fin 2048) :
    Cert.Spec.colSumSq y j = ∑ p ∈ Finset.range 8192, col y j p * col y j p := by
  unfold Cert.Spec.colSumSq
  rw [Finset.sum_range]
  exact Finset.sum_congr rfl fun p _ => by rw [col_of_lt y j p]

theorem sum_next_block (f : ℕ → EReal) (n : ℕ) :
    ∑ p ∈ Finset.range (512 * (n + 1 + 1)), f p = ∑ p ∈ Finset.range (512 * (n + 1)), f p + ∑ r : Fin 512, f (512 * (n + 1) + r.val) := by
  rw [show 512 * (n + 1 + 1) = 512 * (n + 1) + 512 by ring, Finset.sum_range_add]
  exact congrArg (_ + ·) (Finset.sum_range fun x => f (512 * (n + 1) + x))

theorem sum_first_block (f : ℕ → EReal) :
    ∑ p ∈ Finset.range (512 * (0 + 1)), f p = ∑ r : Fin 512, f (512 * 0 + r.val) := by
  rw [show 512 * (0 + 1) = 512 by rfl, Finset.sum_range]
  exact Finset.sum_congr rfl fun r _ => by rw [Nat.mul_zero, Nat.zero_add]

section Pieces
variable {F : FTy → Type} [FloatOps F]
variable (c : Dev nD) (i : grid1.Coords) (arg1 : Memref sig .tc .vmem S512x2048 .f32) (harg1 : arg1.IsWhole) (arg2 : Memref sig .tc .vmem S1x2048 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S1x2048 .f32) (harg5 : arg5.IsWhole)

theorem sout1_A_0_eq (hc0 : cond1_0 i) (hc1 : ¬cond1_1 i)
    (x0 : Vec F S512x2048 .f32) :
    sout1_A_0 c i arg1 harg1 arg2 harg2 arg3 harg3 arg4 harg4 arg5 harg5 hc0 hc1 x0 = k1_pay4 x0 (k1_pay1 (F := F)) := by
  unfold sout1_A_0
  rw [View.read_writes_eq_canon _ _ _ (scover1_A_0 c i arg1 harg1 arg2 harg2 arg3 harg3 arg4 harg4 arg5 harg5 hc0 hc1 x0)]
  unfold kernelRun1_A
  dsimp only
  sl_unfold_words
  rw [View.canon_cons_unit_zero (S := S1x2048) hz, View.readCov_unit_zero (S := S1x2048) _ hz]
  simp only [View.readAt_eq_ld, harg1.read_unread, harg4.read_unread, harg5.read_unread, View.ld_unit_zero (S := S512x2048) hz, View.ld_unit_zero (S := S1x2048) hz, View.readCov_unit_zero (S := S1x2048) _ hz]

theorem sout1_A_1_eq (hc0 : cond1_0 i) (hc1 : ¬cond1_1 i)
    (x0 : Vec F S512x2048 .f32) :
    sout1_A_1 c i arg1 harg1 arg2 harg2 arg3 harg3 arg4 harg4 arg5 harg5 hc0 hc1 x0 = k1_pay5 x0 (k1_pay2 (F := F)) := by
  unfold sout1_A_1
  rw [View.read_writes_eq_canon _ _ _ (scover1_A_1 c i arg1 harg1 arg2 harg2 arg3 harg3 arg4 harg4 arg5 harg5 hc0 hc1 x0)]
  unfold kernelRun1_A
  dsimp only
  sl_unfold_words
  rw [View.canon_cons_unit_zero (S := S1x2048) hz, View.readCov_unit_zero (S := S1x2048) _ hz]
  simp only [View.readAt_eq_ld, harg1.read_unread, harg4.read_unread, harg5.read_unread, View.ld_unit_zero (S := S512x2048) hz, View.ld_unit_zero (S := S1x2048) hz, View.readCov_unit_zero (S := S1x2048) _ hz]

theorem sout1_B_0_eq (hc0 : ¬cond1_0 i) (hc1 : ¬cond1_1 i)
    (x0 : Vec F S512x2048 .f32) (xs0 : Vec F S1x2048 .f32) (xs1 : Vec F S1x2048 .f32) :
    sout1_B_0 c i arg1 harg1 arg2 harg2 arg3 harg3 arg4 harg4 arg5 harg5 hc0 hc1 x0 xs0 xs1 = k1_pay4 x0 xs0 := by
  unfold sout1_B_0
  rw [View.read_writes_eq_canon _ _ _ (scover1_B_0 c i arg1 harg1 arg2 harg2 arg3 harg3 arg4 harg4 arg5 harg5 hc0 hc1 x0 xs0 xs1)]
  unfold kernelRun1_B
  dsimp only
  sl_unfold_words
  rw [View.canon_unit_zero hz]
  simp only [View.readAt_eq_ld, harg1.read_unread, harg4.read_unread, harg5.read_unread, View.ld_unit_zero (S := S512x2048) hz, View.ld_unit_zero (S := S1x2048) hz, View.readCov_unit_zero (S := S1x2048) _ hz]

theorem sout1_B_1_eq (hc0 : ¬cond1_0 i) (hc1 : ¬cond1_1 i)
    (x0 : Vec F S512x2048 .f32) (xs0 : Vec F S1x2048 .f32) (xs1 : Vec F S1x2048 .f32) :
    sout1_B_1 c i arg1 harg1 arg2 harg2 arg3 harg3 arg4 harg4 arg5 harg5 hc0 hc1 x0 xs0 xs1 = k1_pay5 x0 xs1 := by
  unfold sout1_B_1
  rw [View.read_writes_eq_canon _ _ _ (scover1_B_1 c i arg1 harg1 arg2 harg2 arg3 harg3 arg4 harg4 arg5 harg5 hc0 hc1 x0 xs0 xs1)]
  unfold kernelRun1_B
  dsimp only
  sl_unfold_words
  rw [View.canon_unit_zero hz]
  simp only [View.readAt_eq_ld, harg1.read_unread, harg4.read_unread, harg5.read_unread, View.ld_unit_zero (S := S512x2048) hz, View.ld_unit_zero (S := S1x2048) hz, View.readCov_unit_zero (S := S1x2048) _ hz]

theorem sout1_C_0_eq (hc0 : ¬cond1_0 i) (hc1 : cond1_1 i)
    (x0 : Vec F S512x2048 .f32) (xs0 : Vec F S1x2048 .f32) (xs1 : Vec F S1x2048 .f32) :
    sout1_C_0 c i arg1 harg1 arg2 harg2 arg3 harg3 arg4 harg4 arg5 harg5 hc0 hc1 x0 xs0 xs1 = k1_pay4 x0 xs0 := by
  unfold sout1_C_0
  rw [View.read_writes_eq_canon _ _ _ (scover1_C_0 c i arg1 harg1 arg2 harg2 arg3 harg3 arg4 harg4 arg5 harg5 hc0 hc1 x0 xs0 xs1)]
  unfold kernelRun1_C
  dsimp only
  sl_unfold_words
  rw [View.canon_unit_zero hz]
  simp only [View.readAt_eq_ld, harg1.read_unread, harg4.read_unread, harg5.read_unread, View.ld_unit_zero (S := S512x2048) hz, View.ld_unit_zero (S := S1x2048) hz, View.readCov_unit_zero (S := S1x2048) _ hz]

theorem sout1_C_1_eq (hc0 : ¬cond1_0 i) (hc1 : cond1_1 i)
    (x0 : Vec F S512x2048 .f32) (xs0 : Vec F S1x2048 .f32) (xs1 : Vec F S1x2048 .f32) :
    sout1_C_1 c i arg1 harg1 arg2 harg2 arg3 harg3 arg4 harg4 arg5 harg5 hc0 hc1 x0 xs0 xs1 = k1_pay5 x0 xs1 := by
  unfold sout1_C_1
  rw [View.read_writes_eq_canon _ _ _ (scover1_C_1 c i arg1 harg1 arg2 harg2 arg3 harg3 arg4 harg4 arg5 harg5 hc0 hc1 x0 xs0 xs1)]
  unfold kernelRun1_C
  dsimp only
  sl_unfold_words
  rw [View.canon_unit_zero hz]
  simp only [View.readAt_eq_ld, harg1.read_unread, harg4.read_unread, harg5.read_unread, View.ld_unit_zero (S := S512x2048) hz, View.ld_unit_zero (S := S1x2048) hz, View.readCov_unit_zero (S := S1x2048) _ hz]

theorem out1_C_1_eq (hc0 : ¬cond1_0 i) (hc1 : cond1_1 i)
    (x0 : Vec F S512x2048 .f32) (xs0 : Vec F S1x2048 .f32) (xs1 : Vec F S1x2048 .f32) :
    out1_C_1 c i arg1 harg1 arg2 harg2 arg3 harg3 arg4 harg4 arg5 harg5 hc0 hc1 x0 xs0 xs1 = k1_pay6 (k1_pay4 x0 xs0) := by
  unfold out1_C_1
  rw [View.read_writes_eq_canon _ _ _ (cover1_C_1 c i arg1 harg1 arg2 harg2 arg3 harg3 arg4 harg4 arg5 harg5 hc0 hc1 x0 xs0 xs1)]
  unfold kernelRun1_C
  dsimp only
  sl_unfold_words
  rw [View.canon_unit_zero hz]
  simp only [View.readAt_eq_ld, harg1.read_unread, harg4.read_unread, harg5.read_unread, View.ld_unit_zero (S := S512x2048) hz, View.ld_unit_zero (S := S1x2048) hz, View.readCov_unit_zero (S := S1x2048) _ hz]

theorem out1_C_2_eq (hc0 : ¬cond1_0 i) (hc1 : cond1_1 i)
    (x0 : Vec F S512x2048 .f32) (xs0 : Vec F S1x2048 .f32) (xs1 : Vec F S1x2048 .f32) :
    out1_C_2 c i arg1 harg1 arg2 harg2 arg3 harg3 arg4 harg4 arg5 harg5 hc0 hc1 x0 xs0 xs1 = k1_pay7 (k1_pay4 x0 xs0) (k1_pay5 x0 xs1) := by
  unfold out1_C_2
  rw [View.read_writes_eq_canon _ _ _ (cover1_C_2 c i arg1 harg1 arg2 harg2 arg3 harg3 arg4 harg4 arg5 harg5 hc0 hc1 x0 xs0 xs1)]
  unfold kernelRun1_C
  dsimp only
  sl_unfold_words
  rw [View.canon_unit_zero hz]
  simp only [View.readAt_eq_ld, harg1.read_unread, harg4.read_unread, harg5.read_unread, View.ld_unit_zero (S := S512x2048) hz, View.ld_unit_zero (S := S1x2048) hz, View.readCov_unit_zero (S := S1x2048) _ hz]

end Pieces

variable (V : (c : Dev nD) → (b : Ref sig .tc) → Buf (Elt Ideal) ((c : Thread nD τ).loc b))

abbrev yblk (c : Dev nD) (t : Fin cfg1.N) : FVec Ideal S512x2048 .f32 := iblk1 V c 0 t
abbrev yarr (c : Dev nD) : Cert.Spec.SX.Idx → EReal := V c main_v15

theorem index1_0 : ∀ t : Fin cfg1.N, win1_0.index t 0 = t.val ∧ win1_0.index t 1 = 0 := by decide +kernel

theorem yblk_apply (c : Dev nD) (t : Fin cfg1.N) (r : Fin 512) (j : Fin 2048) :
    yblk V c t (ix2 r j) = col (yarr V c) j (512 * t.val + r.val) := by
  have hN : t.val < 16 := lt_of_lt_of_eq t.isLt N_1
  have hlt : 512 * t.val + r.val < 8192 := by have := r.isLt; omega
  unfold col; rw [dif_pos hlt]
  show iblk1 V c 0 t (ix2 r j) = V c main_v15 _
  unfold iblk1
  rw [View.read_apply]
  show V c main_v15 _ = V c main_v15 _
  congr 1
  funext a
  apply Fin.ext
  match a with
  | ⟨0, _⟩ => show win1_0.index t 0 * 512 + 1 * r.val = 512 * t.val + r.val; rw [(index1_0 t).1]; omega
  | ⟨1, _⟩ => show win1_0.index t 1 * 2048 + 1 * j.val = j.val; rw [(index1_0 t).2]; omega

theorem sums_at (c : Dev nD) : ∀ (n : ℕ) (hn : n < cfg1.N) (u : Fin 1) (j : Fin 2048),
    (outsAt1 V c n hn).2.2.1 (ix2 u j) = ∑ p ∈ Finset.range (512 * (n + 1)), col (yarr V c) j p
    ∧ (outsAt1 V c n hn).2.2.2 (ix2 u j) = ∑ p ∈ Finset.range (512 * (n + 1)), col (yarr V c) j p * col (yarr V c) j p
  | 0, hn, u, j => by
    rw [outsAt1_A V c ⟨0, hn⟩ rfl (by dsimp only; omega)]
    dsimp only
    constructor
    · refine (congrFun (sout1_A_0_eq (F := Ideal) c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) scM1_1 (Memref.isWhole_whole _) _ _ (yblk V c ⟨0, hn⟩)) (ix2 u j)).trans ?_
      refine (pay4_apply (yblk V c ⟨0, hn⟩) (k1_pay1 (F := Ideal)) u j).trans ?_
      rw [pay1_apply u j, zero_add, sum_first_block]
      exact Finset.sum_congr rfl fun r _ => yblk_apply V c ⟨0, hn⟩ r j
    · refine (congrFun (sout1_A_1_eq (F := Ideal) c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) scM1_1 (Memref.isWhole_whole _) _ _ (yblk V c ⟨0, hn⟩)) (ix2 u j)).trans ?_
      refine (pay5_apply (yblk V c ⟨0, hn⟩) (k1_pay2 (F := Ideal)) u j).trans ?_
      rw [pay2_apply u j, zero_add, sum_first_block (fun p => col (yarr V c) j p * col (yarr V c) j p)]
      exact Finset.sum_congr rfl fun r _ => by rw [yblk_apply V c ⟨0, hn⟩ r j]
  | n + 1, hn, u, j => by
    have hN : n + 1 < 16 := lt_of_lt_of_eq hn N_1
    have h0 : ¬(⟨n + 1, hn⟩ : Fin cfg1.N).val % 16 = 0 := by dsimp only; omega
    have ih := sums_at c n (Nat.lt_of_succ_lt hn) u j
    rw [sum_next_block, sum_next_block (fun p => col (yarr V c) j p * col (yarr V c) j p), ← ih.1, ← ih.2]
    by_cases h1 : (⟨n + 1, hn⟩ : Fin cfg1.N).val % 16 = 15
    · rw [outsAt1_C V c ⟨n + 1, hn⟩ h0 h1]
      dsimp only
      constructor
      · refine (congrFun (sout1_C_0_eq (F := Ideal) c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) _ _ (yblk V c ⟨n + 1, hn⟩) (outsAt1 V c n (Nat.lt_of_succ_lt hn)).2.2.1 (outsAt1 V c n (Nat.lt_of_succ_lt hn)).2.2.2) (ix2 u j)).trans ?_
        refine (pay4_apply (yblk V c ⟨n + 1, hn⟩) (outsAt1 V c n (Nat.lt_of_succ_lt hn)).2.2.1 u j).trans ?_
        exact congrArg (_ + ·) (Finset.sum_congr rfl fun r _ => yblk_apply V c ⟨n + 1, hn⟩ r j)
      · refine (congrFun (sout1_C_1_eq (F := Ideal) c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) _ _ (yblk V c ⟨n + 1, hn⟩) (outsAt1 V c n (Nat.lt_of_succ_lt hn)).2.2.1 (outsAt1 V c n (Nat.lt_of_succ_lt hn)).2.2.2) (ix2 u j)).trans ?_
        refine (pay5_apply (yblk V c ⟨n + 1, hn⟩) (outsAt1 V c n (Nat.lt_of_succ_lt hn)).2.2.2 u j).trans ?_
        exact congrArg (_ + ·) (Finset.sum_congr rfl fun r _ => by rw [yblk_apply V c ⟨n + 1, hn⟩ r j])
    · rw [outsAt1_B V c ⟨n + 1, hn⟩ h0 h1]
      dsimp only
      constructor
      · refine (congrFun (sout1_B_0_eq (F := Ideal) c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) _ _ (yblk V c ⟨n + 1, hn⟩) (outsAt1 V c n (Nat.lt_of_succ_lt hn)).2.2.1 (outsAt1 V c n (Nat.lt_of_succ_lt hn)).2.2.2) (ix2 u j)).trans ?_
        refine (pay4_apply (yblk V c ⟨n + 1, hn⟩) (outsAt1 V c n (Nat.lt_of_succ_lt hn)).2.2.1 u j).trans ?_
        exact congrArg (_ + ·) (Finset.sum_congr rfl fun r _ => yblk_apply V c ⟨n + 1, hn⟩ r j)
      · refine (congrFun (sout1_B_1_eq (F := Ideal) c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) _ _ (yblk V c ⟨n + 1, hn⟩) (outsAt1 V c n (Nat.lt_of_succ_lt hn)).2.2.1 (outsAt1 V c n (Nat.lt_of_succ_lt hn)).2.2.2) (ix2 u j)).trans ?_
        refine (pay5_apply (yblk V c ⟨n + 1, hn⟩) (outsAt1 V c n (Nat.lt_of_succ_lt hn)).2.2.2 u j).trans ?_
        exact congrArg (_ + ·) (Finset.sum_congr rfl fun r _ => by rw [yblk_apply V c ⟨n + 1, hn⟩ r j])

theorem outs_last (c : Dev nD) (u : Fin 1) (j : Fin 2048) :
    (outsAt1 V c t1_15.val t1_15.isLt).1 (ix2 u j) = (outsAt1 V c t1_15.val t1_15.isLt).2.2.1 (ix2 u j) * Cert.Spec.invN
    ∧ (outsAt1 V c t1_15.val t1_15.isLt).2.1 (ix2 u j)
        = (outsAt1 V c t1_15.val t1_15.isLt).2.2.2 (ix2 u j) * Cert.Spec.invN
          - ((outsAt1 V c t1_15.val t1_15.isLt).2.2.1 (ix2 u j) * Cert.Spec.invN) * ((outsAt1 V c t1_15.val t1_15.isLt).2.2.1 (ix2 u j) * Cert.Spec.invN) := by
  rw [outsAt1_C V c t1_15 (by decide) (by decide)]
  dsimp only
  rw [congrFun (sout1_C_0_eq (F := Ideal) c (grid1.coords t1_15) (ms1_0 t1_15) (hs1_0 t1_15) (ms1_1 t1_15) (hs1_1 t1_15) (ms1_2 t1_15) (hs1_2 t1_15) scM1_0 (Memref.isWhole_whole _) scM1_1 (Memref.isWhole_whole _) _ _ (yblk V c t1_15) (outsAt1 V c (t1_15.val - 1) (Nat.lt_of_le_of_lt (Nat.sub_le _ _) t1_15.isLt)).2.2.1 (outsAt1 V c (t1_15.val - 1) (Nat.lt_of_le_of_lt (Nat.sub_le _ _) t1_15.isLt)).2.2.2) (ix2 u j),
    congrFun (sout1_C_1_eq (F := Ideal) c (grid1.coords t1_15) (ms1_0 t1_15) (hs1_0 t1_15) (ms1_1 t1_15) (hs1_1 t1_15) (ms1_2 t1_15) (hs1_2 t1_15) scM1_0 (Memref.isWhole_whole _) scM1_1 (Memref.isWhole_whole _) _ _ (yblk V c t1_15) (outsAt1 V c (t1_15.val - 1) (Nat.lt_of_le_of_lt (Nat.sub_le _ _) t1_15.isLt)).2.2.1 (outsAt1 V c (t1_15.val - 1) (Nat.lt_of_le_of_lt (Nat.sub_le _ _) t1_15.isLt)).2.2.2) (ix2 u j)]
  constructor
  · refine (congrFun (out1_C_1_eq (F := Ideal) c (grid1.coords t1_15) (ms1_0 t1_15) (hs1_0 t1_15) (ms1_1 t1_15) (hs1_1 t1_15) (ms1_2 t1_15) (hs1_2 t1_15) scM1_0 (Memref.isWhole_whole _) scM1_1 (Memref.isWhole_whole _) _ _ (yblk V c t1_15) (outsAt1 V c (t1_15.val - 1) (Nat.lt_of_le_of_lt (Nat.sub_le _ _) t1_15.isLt)).2.2.1 (outsAt1 V c (t1_15.val - 1) (Nat.lt_of_le_of_lt (Nat.sub_le _ _) t1_15.isLt)).2.2.2) (ix2 u j)).trans ?_
    exact pay6_apply _ u j
  · refine (congrFun (out1_C_2_eq (F := Ideal) c (grid1.coords t1_15) (ms1_0 t1_15) (hs1_0 t1_15) (ms1_1 t1_15) (hs1_1 t1_15) (ms1_2 t1_15) (hs1_2 t1_15) scM1_0 (Memref.isWhole_whole _) scM1_1 (Memref.isWhole_whole _) _ _ (yblk V c t1_15) (outsAt1 V c (t1_15.val - 1) (Nat.lt_of_le_of_lt (Nat.sub_le _ _) t1_15.isLt)).2.2.1 (outsAt1 V c (t1_15.val - 1) (Nat.lt_of_le_of_lt (Nat.sub_le _ _) t1_15.isLt)).2.2.2) (ix2 u j)).trans ?_
    exact pay7_apply _ _ u j

theorem mean_row (c : Dev nD) : (outsAt1 V c t1_15.val t1_15.isLt).1 = Cert.Spec.Mean2 (yarr V c) := by
  funext i
  obtain ⟨u, j, rfl⟩ : ∃ (u : Fin 1) (j : Fin 2048), i = ix2 u j := ⟨i 0, i 1, eq_ix2 i⟩
  rw [(outs_last V c u j).1, (sums_at V c t1_15.val t1_15.isLt u j).1]
  show _ = Cert.Spec.colSum (yarr V c) j * Cert.Spec.invN
  rw [colSum_eq_range]
  rfl

theorem var_row (c : Dev nD) : (outsAt1 V c t1_15.val t1_15.isLt).2.1 = Cert.Spec.Var2 (yarr V c) := by
  funext i
  obtain ⟨u, j, rfl⟩ : ∃ (u : Fin 1) (j : Fin 2048), i = ix2 u j := ⟨i 0, i 1, eq_ix2 i⟩
  rw [(outs_last V c u j).2, (sums_at V c t1_15.val t1_15.isLt u j).1, (sums_at V c t1_15.val t1_15.isLt u j).2]
  show _ = Cert.Spec.colSumSq (yarr V c) j * Cert.Spec.invN - (Cert.Spec.colSum (yarr V c) j * Cert.Spec.invN) * (Cert.Spec.colSum (yarr V c) j * Cert.Spec.invN)
  rw [colSum_eq_range, colSumSq_eq_range]
  rfl

theorem flushed1_eq (c : Dev nD) (t : Fin cfg1.N) (hf : (cfg1.win 1).flush t = true) :
    (dat1 V c).flushed 1 t = ((cfg1.win 1).blk t).view.read (Elt Ideal) (Cert.Spec.Mean2 (yarr V c)) := by
  have hN : cfg1.N = 16 := N_1
  have h15 : t.val = 15 := by have := (flush1_1 t).mp hf; have := t.isLt; omega
  obtain rfl : t = t1_15 := Fin.ext h15
  show (cfg1.win 1).cut (grid1.coords t1_15) ((dat1 V c).after 1 t1_15) = _
  rw [after1_1, mean_row]
  have hz' : (fun a => win1_1.index t1_15 a * main_v16_0.ty.shape.size a) = fun _ => 0 := funext fun a => by fin_cases a <;> decide
  exact (Memref.read_access_unit_zero (Elt Ideal) main_v16_0 hz' (fun a => by rw [congrFun hz' a]; simp) (Cert.Spec.Mean2 (yarr V c))).symm

theorem flushed2_eq (c : Dev nD) (t : Fin cfg1.N) (hf : (cfg1.win 2).flush t = true) :
    (dat1 V c).flushed 2 t = ((cfg1.win 2).blk t).view.read (Elt Ideal) (Cert.Spec.Var2 (yarr V c)) := by
  have hN : cfg1.N = 16 := N_1
  have h15 : t.val = 15 := by have := (flush1_2 t).mp hf; have := t.isLt; omega
  obtain rfl : t = t1_15 := Fin.ext h15
  show (cfg1.win 2).cut (grid1.coords t1_15) ((dat1 V c).after 2 t1_15) = _
  rw [after1_2, var_row]
  have hz' : (fun a => win1_2.index t1_15 a * main_v16_1.ty.shape.size a) = fun _ => 0 := funext fun a => by fin_cases a <;> decide
  exact (Memref.read_access_unit_zero (Elt Ideal) main_v16_1 hz' (fun a => by rw [congrFun hz' a]; simp) (Cert.Spec.Var2 (yarr V c))).symm

theorem arr1_mean (V : (c : Dev nD) → (b : Ref sig .tc) → Buf (Elt Ideal) ((c : Thread nD τ).loc b)) (c : Dev nD) :
    (dat1 V c).arrAt 1 cfg1.N = Cert.Spec.Mean2 (V c main_v15) :=
  (dat1 V c).arrAt_eq_of_cover 1 (Cert.Spec.Mean2 (yarr V c)) (flushed1_eq V c) fun i =>
    ⟨t1_15, (flush1_1 t1_15).mpr rfl, by
      show i ∈ ((View.whole main_v16_0).slice (win1_1.rect t1_15)).set
      rw [View.set_slice_whole, Rect.mem_set_unit]
      intro a
      have h0 : (i 0 : Nat) < 1 := (i 0).isLt
      have h1 : (i 1 : Nat) < 2048 := (i 1).isLt
      match a with
      | ⟨0, _⟩ => show win1_1.index t1_15 0 * win1_1.size 0 ≤ (i 0 : Nat) ∧ (i 0 : Nat) < win1_1.index t1_15 0 * win1_1.size 0 + win1_1.xsize (grid1.coords t1_15) 0
                  rw [show win1_1.index t1_15 0 * win1_1.size 0 = 0 from by decide +kernel, show win1_1.xsize (grid1.coords t1_15) 0 = 1 from by decide +kernel]; omega
      | ⟨1, _⟩ => show win1_1.index t1_15 1 * win1_1.size 1 ≤ (i 1 : Nat) ∧ (i 1 : Nat) < win1_1.index t1_15 1 * win1_1.size 1 + win1_1.xsize (grid1.coords t1_15) 1
                  rw [show win1_1.index t1_15 1 * win1_1.size 1 = 0 from by decide +kernel, show win1_1.xsize (grid1.coords t1_15) 1 = 2048 from by decide +kernel]; omega⟩

theorem arr1_var (V : (c : Dev nD) → (b : Ref sig .tc) → Buf (Elt Ideal) ((c : Thread nD τ).loc b)) (c : Dev nD) :
    (dat1 V c).arrAt 2 cfg1.N = Cert.Spec.Var2 (V c main_v15) :=
  (dat1 V c).arrAt_eq_of_cover 2 (Cert.Spec.Var2 (yarr V c)) (flushed2_eq V c) fun i =>
    ⟨t1_15, (flush1_2 t1_15).mpr rfl, by
      show i ∈ ((View.whole main_v16_1).slice (win1_2.rect t1_15)).set
      rw [View.set_slice_whole, Rect.mem_set_unit]
      intro a
      have h0 : (i 0 : Nat) < 1 := (i 0).isLt
      have h1 : (i 1 : Nat) < 2048 := (i 1).isLt
      match a with
      | ⟨0, _⟩ => show win1_2.index t1_15 0 * win1_2.size 0 ≤ (i 0 : Nat) ∧ (i 0 : Nat) < win1_2.index t1_15 0 * win1_2.size 0 + win1_2.xsize (grid1.coords t1_15) 0
                  rw [show win1_2.index t1_15 0 * win1_2.size 0 = 0 from by decide +kernel, show win1_2.xsize (grid1.coords t1_15) 0 = 1 from by decide +kernel]; omega
      | ⟨1, _⟩ => show win1_2.index t1_15 1 * win1_2.size 1 ≤ (i 1 : Nat) ∧ (i 1 : Nat) < win1_2.index t1_15 1 * win1_2.size 1 + win1_2.xsize (grid1.coords t1_15) 1
                  rw [show win1_2.index t1_15 1 * win1_2.size 1 = 0 from by decide +kernel, show win1_2.xsize (grid1.coords t1_15) 1 = 2048 from by decide +kernel]; omega⟩

end Cert.KernelIdeal.Val1

end
-- ==== Proof.Value.R2.lean ====
import proofs.«128430_j57578331570847_1_alg».proof.Proof.KernelIdeal.R2Frame
import proofs.«128430_j57578331570847_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val2

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat Cfg Window)

theorem hz : (![0, 0] : Fin 2 → Nat) = fun _ => 0 := funext fun a => by fin_cases a <;> rfl

theorem pay_apply (x0 : Vec Ideal S256x2048 .f32) (xv xm xg xb : Vec Ideal S1x2048 .f32) (p : Fin 256) (j : Fin 2048) :
    k2_pay1 x0 xv xm xg xb (ix2 p j)
      = Cert.Spec.norm (x0 (ix2 p j)) (xm (ix2 0 j)) (xv (ix2 0 j)) (xg (ix2 0 j)) (xb (ix2 0 j)) := by
  unfold k2_pay1
  simp only [shapeCast_self]
  have hm := broadcastTo_1b_ab_apply xm broadcasts_S1x2048_S256x2048 p j
  have hg := broadcastTo_1b_ab_apply xg broadcasts_S1x2048_S256x2048 p j
  have hb := broadcastTo_1b_ab_apply xb broadcasts_S1x2048_S256x2048 p j
  have hr := broadcastTo_1b_ab_apply (rsqrt (addf xv (broadcast S1x2048 (Scalar.ofBits (F := Ideal) .f32 0x3727C5AC#32)))) broadcasts_S1x2048_S256x2048 p j
  show Ideal.div (Ideal.liftRound Ideal.roundHalfEven (min Cert.Spec.hi (max Cert.Spec.lo
      (broadcastTo S256x2048 xg broadcasts_S1x2048_S256x2048 (ix2 p j)
          * ((x0 (ix2 p j) - broadcastTo S256x2048 xm broadcasts_S1x2048_S256x2048 (ix2 p j))
            * broadcastTo S256x2048 (rsqrt (addf xv (broadcast S1x2048 (Scalar.ofBits (F := Ideal) .f32 0x3727C5AC#32)))) broadcasts_S1x2048_S256x2048 (ix2 p j))
        + broadcastTo S256x2048 xb broadcasts_S1x2048_S256x2048 (ix2 p j))) * Cert.Spec.sc)) Cert.Spec.sc = _
  rw [hm, hg, hb, hr]
  rfl

theorem blk_out (Y : Cert.Spec.SX.Idx → EReal) (MU VA G B : Cert.Spec.SR.Idx → EReal)
    (x0 : Vec Ideal S256x2048 .f32) (xm xv xg xb : Vec Ideal S1x2048 .f32) (y : S256x2048.Idx) (i : Cert.Spec.SX.Idx)
    (h0 : x0 y = Y i) (hcol : (i 1).val = (y 1).val)
    (hm : ∀ j : Fin 2048, xm (ix2 0 j) = MU (ix2 0 j)) (hv : ∀ j : Fin 2048, xv (ix2 0 j) = VA (ix2 0 j))
    (hg : ∀ j : Fin 2048, xg (ix2 0 j) = G (ix2 0 j)) (hb : ∀ j : Fin 2048, xb (ix2 0 j) = B (ix2 0 j)) :
    k2_pay1 x0 xv xm xg xb y = Cert.Spec.Out2 Y MU VA G B i := by
  obtain ⟨p, j, rfl⟩ : ∃ (p : Fin 256) (j : Fin 2048), y = ix2 p j := ⟨y 0, y 1, eq_ix2 y⟩
  have hi : i 1 = j := Fin.ext hcol
  rw [pay_apply, h0, hm, hv, hg, hb]
  unfold Cert.Spec.Out2
  rw [hi]

variable (V : (c : Dev nD) → (b : Ref sig .tc) → Buf (Elt Ideal) ((c : Thread nD τ).loc b))

theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

theorem row_blk1 (c : Dev nD) (t : Fin cfg2.N) (j : Fin 2048) :
    iblk2 V c 1 t (ix2 0 j) = V c main_v16_0 (ix2 0 j) := by
  obtain ⟨e00, e01, e10, e11, e20, e21, e30, e31, e40, e41, e50, e51⟩ := idx_facts t
  show V c main_v16_0 (((cfg2.win 1).blk t).view.emb (ix2 0 j)) = V c main_v16_0 (ix2 0 j)
  refine congrArg (V c main_v16_0) (funext fun a => Fin.ext ?_)
  match a with
  | ⟨0, _⟩ => show win2_1.index t (0 : Fin 2) * 1 + 1 * 0 = 0; omega
  | ⟨1, _⟩ => show win2_1.index t (1 : Fin 2) * 2048 + 1 * j.val = j.val; omega

theorem row_blk2 (c : Dev nD) (t : Fin cfg2.N) (j : Fin 2048) :
    iblk2 V c 2 t (ix2 0 j) = V c main_v16_1 (ix2 0 j) := by
  obtain ⟨e00, e01, e10, e11, e20, e21, e30, e31, e40, e41, e50, e51⟩ := idx_facts t
  show V c main_v16_1 (((cfg2.win 2).blk t).view.emb (ix2 0 j)) = V c main_v16_1 (ix2 0 j)
  refine congrArg (V c main_v16_1) (funext fun a => Fin.ext ?_)
  match a with
  | ⟨0, _⟩ => show win2_2.index t (0 : Fin 2) * 1 + 1 * 0 = 0; omega
  | ⟨1, _⟩ => show win2_2.index t (1 : Fin 2) * 2048 + 1 * j.val = j.val; omega

theorem row_blk3 (c : Dev nD) (t : Fin cfg2.N) (j : Fin 2048) :
    iblk2 V c 3 t (ix2 0 j) = V c main_v13 (ix2 0 j) := by
  obtain ⟨e00, e01, e10, e11, e20, e21, e30, e31, e40, e41, e50, e51⟩ := idx_facts t
  show V c main_v13 (((cfg2.win 3).blk t).view.emb (ix2 0 j)) = V c main_v13 (ix2 0 j)
  refine congrArg (V c main_v13) (funext fun a => Fin.ext ?_)
  match a with
  | ⟨0, _⟩ => show win2_3.index t (0 : Fin 2) * 1 + 1 * 0 = 0; omega
  | ⟨1, _⟩ => show win2_3.index t (1 : Fin 2) * 2048 + 1 * j.val = j.val; omega

theorem row_blk4 (c : Dev nD) (t : Fin cfg2.N) (j : Fin 2048) :
    iblk2 V c 4 t (ix2 0 j) = V c main_v14 (ix2 0 j) := by
  obtain ⟨e00, e01, e10, e11, e20, e21, e30, e31, e40, e41, e50, e51⟩ := idx_facts t
  show V c main_v14 (((cfg2.win 4).blk t).view.emb (ix2 0 j)) = V c main_v14 (ix2 0 j)
  refine congrArg (V c main_v14) (funext fun a => Fin.ext ?_)
  match a with
  | ⟨0, _⟩ => show win2_4.index t (0 : Fin 2) * 1 + 1 * 0 = 0; omega
  | ⟨1, _⟩ => show win2_4.index t (1 : Fin 2) * 2048 + 1 * j.val = j.val; omega

theorem flushed_eq (c : Dev nD) (t : Fin cfg2.N) :
    (dat2 V c).flushed 5 t = ((cfg2.win 5).blk t).view.read (Elt Ideal)
      (Cert.Spec.Out2 (V c main_v15) (V c main_v16_0) (V c main_v16_1) (V c main_v13) (V c main_v14)) := by
  show (cfg2.win 5).cut (grid2.coords t) ((dat2 V c).after 5 t) = _
  rw [after2_5]
  unfold out2_5
  rw [View.canon_unit_zero hz]
  simp only [View.ld_unit_zero (S := S256x2048) hz, View.ld_unit_zero (S := S1x2048) hz]
  obtain ⟨e00, e01, e10, e11, e20, e21, e30, e31, e40, e41, e50, e51⟩ := idx_facts t
  funext y
  refine blk_out (V c main_v15) (V c main_v16_0) (V c main_v16_1) (V c main_v13) (V c main_v14)
    (iblk2 V c 0 t) (iblk2 V c 1 t) (iblk2 V c 2 t) (iblk2 V c 3 t) (iblk2 V c 4 t) y (((cfg2.win 5).blk t).view.emb y)
    ?_ ?_ (row_blk1 V c t) (row_blk2 V c t) (row_blk3 V c t) (row_blk4 V c t)
  · show V c main_v15 (((cfg2.win 0).blk t).view.emb y) = V c main_v15 (((cfg2.win 5).blk t).view.emb y)
    refine congrArg (V c main_v15) (funext fun a => Fin.ext ?_)
    match a with
    | ⟨0, _⟩ => show win2_0.index t (0 : Fin 2) * 256 + 1 * (y 0).val = win2_5.index t (0 : Fin 2) * 256 + 1 * (y 0).val; omega
    | ⟨1, _⟩ => show win2_0.index t (1 : Fin 2) * 2048 + 1 * (y 1).val = win2_5.index t (1 : Fin 2) * 2048 + 1 * (y 1).val; omega
  · show win2_5.index t (1 : Fin 2) * 2048 + 1 * (y 1).val = (y 1).val
    omega

theorem mem_blk (t : Fin cfg2.N) (i : S8192x2048.Idx) :
    i ∈ ((cfg2.win 5).blk t).view.set ↔ ∀ a : Fin 2, win2_5.index t a * S256x2048.size a ≤ (i a).val ∧ (i a).val < win2_5.index t a * S256x2048.size a + S256x2048.size a := by
  show i ∈ ((View.whole main_v17).slice (win2_5.rect t)).set ↔ _
  rw [View.set_slice_whole, Rect.mem_set_unit]
  exact Iff.rfl

theorem cover (i : S8192x2048.Idx) :
    ∃ t : Fin cfg2.N, (cfg2.win 5).flush t = true ∧ i ∈ ((cfg2.win 5).blk t).view.set := by
  have hi0 : (i 0).val < 8192 := (i 0).isLt
  have hi1 : (i 1).val < 2048 := (i 1).isLt
  obtain ⟨t, ht⟩ : ∃ t : Fin cfg2.N, t.val = (i 0).val / 256 :=
    ⟨⟨(i 0).val / 256, by show _ < grid2.N; rw [N_2]; omega⟩, rfl⟩
  obtain ⟨e00, e01, e10, e11, e20, e21, e30, e31, e40, e41, e50, e51⟩ := idx_facts t
  refine ⟨t, flush2_5 t, ?_⟩
  rw [mem_blk]
  intro a
  match a with
  | ⟨0, _⟩ => show win2_5.index t (0 : Fin 2) * 256 ≤ (i 0).val ∧ (i 0).val < win2_5.index t (0 : Fin 2) * 256 + 256; omega
  | ⟨1, _⟩ => show win2_5.index t (1 : Fin 2) * 2048 ≤ (i 1).val ∧ (i 1).val < win2_5.index t (1 : Fin 2) * 2048 + 2048; omega

theorem arr2 (c : Dev nD) :
    (dat2 V c).arrAt 5 cfg2.N = Cert.Spec.Out2 (V c main_v15) (V c main_v16_0) (V c main_v16_1) (V c main_v13) (V c main_v14) :=
  (dat2 V c).arrAt_eq_of_cover 5 (Cert.Spec.Out2 (V c main_v15) (V c main_v16_0) (V c main_v16_1) (V c main_v13) (V c main_v14))
    (fun t _ => flushed_eq V c t) cover

end Cert.KernelIdeal.Val2

end
-- ==== Proof.Value.Prefix.lean ====
import proofs.«128430_j57578331570847_1_alg».proof.Proof.Gen.KernelIdeal.Regions
import proofs.«128430_j57578331570847_1_alg».proof.Proof.Spec
import Idealize.ShloMosaic.Lib.StableHlo.Run
import Idealize.ShloMosaic.Lib.ValueIdx
import Idealize.ShloMosaic.Lib.ValueLayout
import Idealize.ShloMosaic.Lib.Pipeline.Value

set_option maxRecDepth 16384

noncomputable section

namespace Cert.KernelIdeal.ValPre

open Cert.KernelIdeal Cert.KernelIdeal.Gen
open Idealize.ShloMosaic Idealize.ShloMosaic.TcCoe Idealize.ShloMosaic.ValueIdx
open Idealize.SL Idealize.SL.Sem

variable (m : (ℓ : Loc nD τ sig) → Buf (Elt Ideal) ℓ) (c : Dev nD)

theorem pre_arg0 : Gen.V9 m c main_arg0 = m ((c : Thread nD τ).loc main_arg0) :=
  (V9_of m c main_arg0 (by decide)).trans <| (V8_of m c main_arg0 (by decide)).trans <| (V7_of m c main_arg0 (by decide)).trans <| (V6_of m c main_arg0 (by decide)).trans <| (V5_of m c main_arg0 (by decide)).trans <| (V4_of m c main_arg0 (by decide)).trans <| (V3_of m c main_arg0 (by decide)).trans <| (V2_of m c main_arg0 (by decide)).trans <| (V1_of m c main_arg0 (by decide)).trans rfl

theorem pre_v5 : (Gen.V9 m c main_v5 : S2048x2048.Idx → EReal) = Cert.Spec.Q (m ((c : Thread nD τ).loc main_arg1)) := by
  rw [V9_of m c main_v5 (by decide), V8_of m c main_v5 (by decide), V7_of m c main_v5 (by decide), V6_of m c main_v5 (by decide)]
  dsimp only [Gen.V5, Gen.V4, Gen.V3, Gen.V2, Gen.V1, Gen.V0, Gen.hostOps0, Gen.hostOps0_1, Gen.hostOps0_2, Gen.hostOps0_3, Gen.hostOps0_4]
  after_results
  funext i
  show Ideal.div (Ideal.liftRound Ideal.roundHalfEven (min Cert.Spec.hi (max Cert.Spec.lo (m ((c : Thread nD τ).loc main_arg1) i)) * Cert.Spec.sc)) Cert.Spec.sc = _
  rfl

theorem pre_v13 : (Gen.V9 m c main_v13 : S1x2048.Idx → EReal) = Cert.Spec.row (m ((c : Thread nD τ).loc main_arg3)) := by
  dsimp only [Gen.V9, Gen.hostOps0_8]
  after_results
  funext i
  obtain ⟨u, j, rfl⟩ : ∃ (u : Fin 1) (j : Fin 2048), i = ix2 u j := ⟨i 0, i 1, eq_ix2 i⟩
  show shapeCast S1x2048 (Gen.V8 m c main_arg3 : S2048.Idx → EReal) shapeCasts_S2048_S1x2048 (ix2 u j) = _
  rw [shapeCast_a_1a_apply, V8_of m c main_arg3 (by decide), V7_of m c main_arg3 (by decide), V6_of m c main_arg3 (by decide), V5_of m c main_arg3 (by decide), V4_of m c main_arg3 (by decide), V3_of m c main_arg3 (by decide), V2_of m c main_arg3 (by decide), V1_of m c main_arg3 (by decide)]
  rfl

theorem pre_v14 : (Gen.V9 m c main_v14 : S1x2048.Idx → EReal) = Cert.Spec.row (m ((c : Thread nD τ).loc main_arg4)) := by
  dsimp only [Gen.V9, Gen.hostOps0_8]
  after_results
  funext i
  obtain ⟨u, j, rfl⟩ : ∃ (u : Fin 1) (j : Fin 2048), i = ix2 u j := ⟨i 0, i 1, eq_ix2 i⟩
  show shapeCast S1x2048 (Gen.V8 m c main_arg4 : S2048.Idx → EReal) shapeCasts_S2048_S1x2048 (ix2 u j) = _
  rw [shapeCast_a_1a_apply, V8_of m c main_arg4 (by decide), V7_of m c main_arg4 (by decide), V6_of m c main_arg4 (by decide), V5_of m c main_arg4 (by decide), V4_of m c main_arg4 (by decide), V3_of m c main_arg4 (by decide), V2_of m c main_arg4 (by decide), V1_of m c main_arg4 (by decide)]
  rfl

theorem pre_v12 : (Gen.V9 m c main_v12 : S1x2048.Idx → EReal) = Cert.Spec.row (Cert.Spec.Q (m ((c : Thread nD τ).loc main_arg2))) := by
  dsimp only [Gen.V9, Gen.V8, Gen.V7, Gen.V6, Gen.V5, Gen.V4, Gen.V3, Gen.V2, Gen.V1, Gen.V0, Gen.hostOps0, Gen.hostOps0_1, Gen.hostOps0_2, Gen.hostOps0_3, Gen.hostOps0_4, Gen.hostOps0_5, Gen.hostOps0_6, Gen.hostOps0_7, Gen.hostOps0_8]
  after_results
  funext i
  obtain ⟨u, j, rfl⟩ : ∃ (u : Fin 1) (j : Fin 2048), i = ix2 u j := ⟨i 0, i 1, eq_ix2 i⟩
  show shapeCast S1x2048 (fun k : S2048.Idx => Ideal.div (Ideal.liftRound Ideal.roundHalfEven (min Cert.Spec.hi (max Cert.Spec.lo (m ((c : Thread nD τ).loc main_arg2) k)) * Cert.Spec.sc)) Cert.Spec.sc) shapeCasts_S2048_S1x2048 (ix2 u j) = _
  rw [shapeCast_a_1a_apply]
  rfl

end Cert.KernelIdeal.ValPre

end
-- ==== Proof.Value.All.lean ====
import proofs.«128430_j57578331570847_1_alg».proof.Proof.KernelIdeal.Assemble
import proofs.«128430_j57578331570847_1_alg».proof.Proof.Value.R0
import proofs.«128430_j57578331570847_1_alg».proof.Proof.Value.R1
import proofs.«128430_j57578331570847_1_alg».proof.Proof.Value.R2
import proofs.«128430_j57578331570847_1_alg».proof.Proof.Value.Prefix
import proofs.«128430_j57578331570847_1_alg».proof.Proof.Spec

set_option maxRecDepth 16384

noncomputable section

namespace Cert.KernelIdeal.ValAll

open Cert.KernelIdeal Cert.KernelIdeal.Gen Cert.KernelIdeal.Hand
open Idealize.ShloMosaic Idealize.ShloMosaic.TcCoe Idealize.ShloMosaic.ValueIdx
open Idealize.SL Idealize.SL.Sem

variable (m : (ℓ : Loc nD τ sig) → Buf (Elt Ideal) ℓ) (c : Dev nD)

abbrev ax : Cert.Spec.SX.Idx → EReal := m ((c : Thread nD τ).loc main_arg0)
abbrev aw : Cert.Spec.SW.Idx → EReal := m ((c : Thread nD τ).loc main_arg1)
abbrev ab : Cert.Spec.SV.Idx → EReal := m ((c : Thread nD τ).loc main_arg2)
abbrev ag : Cert.Spec.SV.Idx → EReal := m ((c : Thread nD τ).loc main_arg3)
abbrev aβ : Cert.Spec.SV.Idx → EReal := m ((c : Thread nD τ).loc main_arg4)

abbrev yS : Cert.Spec.SX.Idx → EReal :=
  Cert.Spec.Y0 (ax m c) (Cert.Spec.Q (aw m c)) (Cert.Spec.row (Cert.Spec.Q (ab m c)))

theorem y10 : (X10 m c main_v15 : Cert.Spec.SX.Idx → EReal) = yS m c := by
  refine (X10_arr m c 3).trans ((Cert.KernelIdeal.Val0.arr0 (T9 m) c).trans ?_)
  show Cert.Spec.Y0 (Gen.V9 m c main_arg0) (Gen.V9 m c main_v5) (Gen.V9 m c main_v12) = _
  rw [Cert.KernelIdeal.ValPre.pre_arg0, Cert.KernelIdeal.ValPre.pre_v5, Cert.KernelIdeal.ValPre.pre_v12]

theorem y11 : (X11 m c main_v15 : Cert.Spec.SX.Idx → EReal) = yS m c :=
  (X11_arr m c 0).trans (((dat1 (T10 m) c).arrAt_in 0 rfl _).trans ((A_eq1 (T10 m) c 0).trans (y10 m c)))

theorem mean11 : (X11 m c main_v16_0 : Cert.Spec.SR.Idx → EReal) = Cert.Spec.Mean2 (yS m c) := by
  refine (X11_arr m c 1).trans ((Cert.KernelIdeal.Val1.arr1_mean (T10 m) c).trans ?_)
  show Cert.Spec.Mean2 (X10 m c main_v15) = _
  rw [y10]

theorem var11 : (X11 m c main_v16_1 : Cert.Spec.SR.Idx → EReal) = Cert.Spec.Var2 (yS m c) := by
  refine (X11_arr m c 2).trans ((Cert.KernelIdeal.Val1.arr1_var (T10 m) c).trans ?_)
  show Cert.Spec.Var2 (X10 m c main_v15) = _
  rw [y10]

theorem g11 : (X11 m c main_v13 : Cert.Spec.SR.Idx → EReal) = Cert.Spec.row (ag m c) :=
  (X11_of_ne m c main_v13 (by decide)).trans ((X10_of_ne m c main_v13 (by decide)).trans (Cert.KernelIdeal.ValPre.pre_v13 m c))
theorem b11 : (X11 m c main_v14 : Cert.Spec.SR.Idx → EReal) = Cert.Spec.row (aβ m c) :=
  (X11_of_ne m c main_v14 (by decide)).trans ((X10_of_ne m c main_v14 (by decide)).trans (Cert.KernelIdeal.ValPre.pre_v14 m c))

theorem result : (X12 m c main_v17 : Cert.Spec.SX.Idx → EReal)
    = Cert.Spec.K (ax m c) (aw m c) (ab m c) (ag m c) (aβ m c) := by
  refine (X12_arr m c 5).trans ((Cert.KernelIdeal.Val2.arr2 (T11 m) c).trans ?_)
  show Cert.Spec.Out2 (X11 m c main_v15) (X11 m c main_v16_0) (X11 m c main_v16_1) (X11 m c main_v13) (X11 m c main_v14) = _
  rw [y11, mean11, var11, g11, b11]
  rfl

end Cert.KernelIdeal.ValAll

end
-- ==== Proof.Ref.Read.lean ====
import proofs.«128430_j57578331570847_1_alg».proof.Proof.Gen.ReferenceIdeal
import proofs.«128430_j57578331570847_1_alg».proof.Proof.Spec
import Idealize.ShloMosaic.Lib.Pipeline.Value
import Idealize.ShloMosaic.Lib.ValueIdx
import Idealize.ShloMosaic.PureOps.Ideal.Laws

noncomputable section

namespace Cert.ReferenceIdeal.Read

open Cert Cert.ReferenceIdeal Cert.ReferenceIdeal.Gen Idealize.ShloMosaic Idealize.ShloMosaic.TcCoe Idealize.SL.Sem Idealize.ShloMosaic.StableHlo
open Idealize.ShloMosaic.ValueIdx

variable {F : FTy → Type} [FloatOps F]

abbrev T (F : FTy → Type) (S : Shape) : Type := (⟨S, .f32⟩ : BufTy).Contents (Elt F)

/-- A scalar word spread over `S`. -/
def fill (S : Shape) (h : S_.BroadcastsInDim S (![] : Fin 0 → Fin S.rank)) (w : BitVec 32) : T F S :=
  broadcastInDim S ![] h (constant S_ .f32 w)

/-- The rounding as the reference writes it, at any shape: the clipped value plus the rounding's correction. -/
def qstV (S : Shape) (h : S_.BroadcastsInDim S (![] : Fin 0 → Fin S.rank)) (x : T F S) : T F S :=
  let c : T F S := minimumf (fill S h 0x42FFFE00#32) (maximumf (fill S h 0xC3000000#32) x)
  addf c (subf (Host.divf (Host.roundeven (mulf c (fill S h 0x43800000#32))) (fill S h 0x43800000#32)) c)

/-- A per-feature vector spread over the rows. -/
def rows (v : T F S2048) : T F S8192x2048 :=
  broadcastInDim S8192x2048 ![0, 1] bcast_S1x2048_S8192x2048_0_1 (broadcastInDim S1x2048 ![1] bcast_S2048_S1x2048_1 v)

/-- Every row of `x` contracted with every row of `w`. -/
def lin (x : T F S8192x2048) (w : T F S2048x2048) : T F S8192x2048 :=
  Host.dotGeneral dot_S8192x2048_S2048x2048_S8192x2048_1_0_0_1_n_n none x (transpose S2048x2048 [1, 0] w transposes_S2048x2048_S2048x2048_1_0)

def colSums (y : T F S8192x2048) : T F S2048 :=
  Host.reduceAdd y (constant S_ .f32 0x00000000#32) reducesTo_S8192x2048_S2048_d0 h_S_

section Value
variable (x0 : T F S8192x2048) (x1 : T F S2048x2048) (x2 x3 x4 : T F S2048)

def y : T F S8192x2048 :=
  qstV _ bcast_S_S8192x2048 (addf (qstV _ bcast_S_S8192x2048 (lin x0 (qstV _ bcast_S_S2048x2048 x1))) (rows (qstV _ bcast_S_S2048 x2)))

def mean : T F S2048 := Host.divf (colSums (y x0 x1 x2)) (fill S2048 bcast_S_S2048 0x46000000#32)

def var : T F S2048 :=
  let d : T F S8192x2048 := subf (y x0 x1 x2) (rows (mean x0 x1 x2))
  Host.divf (colSums (mulf d d)) (fill S2048 bcast_S_S2048 0x46000000#32)

/-- The reference's result as a function of its five arguments, operation by operation. -/
def result : T F S8192x2048 :=
  qstV _ bcast_S_S8192x2048 (addf (mulf (rows x3) (mulf (subf (y x0 x1 x2) (rows (mean x0 x1 x2)))
    (rows (Host.rsqrt (addf (var x0 x1 x2) (fill S2048 bcast_S_S2048 0x3727C5AC#32)))))) (rows x4))

end Value

/-- A spread constant ignores the index, so the rounding reads pointwise by unfolding. -/
theorem qstV_apply (S : Shape) (h : S_.BroadcastsInDim S (![] : Fin 0 → Fin S.rank)) (x : T Ideal S) (i : S.Idx) :
    qstV S h x i = Spec.qst (x i) := rfl

theorem qstV_eq (S : Shape) (h : S_.BroadcastsInDim S (![] : Fin 0 → Fin S.rank)) (x : T Ideal S) : qstV S h x = Spec.Qst x := rfl

theorem rows_apply (v : T F S2048) (i : S8192x2048.Idx) : rows v i = v (ix1 (i 1)) := by
  unfold rows
  rw [broadcastInDim_apply _ bcast_S1x2048_S8192x2048_0_1 _ i (ix2 0 (i 1)) (fun a => match a with
      | ⟨0, _⟩ => by show 0 = if (1 : Nat) = 1 then 0 else (i 0).val; rw [if_pos rfl]
      | ⟨1, _⟩ => by show (i 1).val = if (2048 : Nat) = 1 then 0 else (i 1).val; rw [if_neg (by decide)]),
    broadcastInDim_apply _ bcast_S2048_S1x2048_1 v (ix2 0 (i 1)) (ix1 (i 1)) (fun a => match a with
      | ⟨0, _⟩ => by show (i 1).val = if (2048 : Nat) = 1 then 0 else (i 1).val; rw [if_neg (by decide)])]

theorem lhs_0 (i : S8192x2048.Idx) (q : dot_S8192x2048_S2048x2048_S8192x2048_1_0_0_1_n_n.contr.Idx) : (dot_S8192x2048_S2048x2048_S8192x2048_1_0_0_1_n_n.lhsIdx i q 0).val = (i 0).val := by
  unfold DotDims.lhsIdx
  rw [dif_neg (show ¬(0 : Fin S8192x2048.rank) ∈ dot_S8192x2048_S2048x2048_S8192x2048_1_0_0_1_n_n.lhsBatch by decide), dif_pos (show (0 : Fin S8192x2048.rank) ∈ dot_S8192x2048_S2048x2048_S8192x2048_1_0_0_1_n_n.lhsNonContracting by decide)]
  rfl
theorem lhs_1 (i : S8192x2048.Idx) (q : dot_S8192x2048_S2048x2048_S8192x2048_1_0_0_1_n_n.contr.Idx) : (dot_S8192x2048_S2048x2048_S8192x2048_1_0_0_1_n_n.lhsIdx i q 1).val = (q ⟨0, by decide⟩).val :=
  dot_S8192x2048_S2048x2048_S8192x2048_1_0_0_1_n_n.lhsIdx_val_of_single rfl i q
theorem rhs_0 (i : S8192x2048.Idx) (q : dot_S8192x2048_S2048x2048_S8192x2048_1_0_0_1_n_n.contr.Idx) : (dot_S8192x2048_S2048x2048_S8192x2048_1_0_0_1_n_n.rhsIdx i q 0).val = (q ⟨0, by decide⟩).val :=
  dot_S8192x2048_S2048x2048_S8192x2048_1_0_0_1_n_n.rhsIdx_val_of_single rfl i q
theorem rhs_1 (i : S8192x2048.Idx) (q : dot_S8192x2048_S2048x2048_S8192x2048_1_0_0_1_n_n.contr.Idx) : (dot_S8192x2048_S2048x2048_S8192x2048_1_0_0_1_n_n.rhsIdx i q 1).val = (i 1).val := by
  unfold DotDims.rhsIdx
  rw [dif_neg (show ¬(1 : Fin S2048x2048.rank) ∈ dot_S8192x2048_S2048x2048_S8192x2048_1_0_0_1_n_n.rhsBatch by decide), dif_pos (show (1 : Fin S2048x2048.rank) ∈ dot_S8192x2048_S2048x2048_S8192x2048_1_0_0_1_n_n.rhsNonContracting by decide)]
  rfl

theorem lin_apply (x : T Ideal S8192x2048) (w : T Ideal S2048x2048) (i : S8192x2048.Idx) :
    lin x w i = Spec.lin x w (i 0) (i 1) := by
  have ht : ∀ j : S2048x2048.Idx, transpose S2048x2048 [1, 0] w transposes_S2048x2048_S2048x2048_1_0 j = w (ix2 (j 1) (j 0)) := fun j =>
    transpose_apply [1, 0] w transposes_S2048x2048_S2048x2048_1_0 j _ (fun b => match b with
      | ⟨0, _⟩ => rfl
      | ⟨1, _⟩ => rfl)
  unfold lin Spec.lin
  generalize transpose S2048x2048 [1, 0] w transposes_S2048x2048_S2048x2048_1_0 = y0 at ht ⊢
  simp only [Host.dotGeneral]
  rw [Ideal.dotGeneral_apply, ← Equiv.sum_comp (contrEquiv1 dot_S8192x2048_S2048x2048_S8192x2048_1_0_0_1_n_n 2048 rfl rfl).symm]
  refine Finset.sum_congr rfl fun k _ => ?_
  have hk := contrEquiv1_symm_val dot_S8192x2048_S2048x2048_S8192x2048_1_0_0_1_n_n 2048 rfl rfl k
  have el : dot_S8192x2048_S2048x2048_S8192x2048_1_0_0_1_n_n.lhsIdx i ((contrEquiv1 dot_S8192x2048_S2048x2048_S8192x2048_1_0_0_1_n_n 2048 rfl rfl).symm k) = ix2 (i 0) k := funext fun a => Fin.ext (by
    match a with
    | ⟨0, _⟩ => exact lhs_0 _ _
    | ⟨1, _⟩ => exact (lhs_1 _ _).trans hk)
  have er : dot_S8192x2048_S2048x2048_S8192x2048_1_0_0_1_n_n.rhsIdx i ((contrEquiv1 dot_S8192x2048_S2048x2048_S8192x2048_1_0_0_1_n_n 2048 rfl rfl).symm k) = ix2 k (i 1) := funext fun a => Fin.ext (by
    match a with
    | ⟨0, _⟩ => exact (rhs_0 _ _).trans hk
    | ⟨1, _⟩ => exact rhs_1 _ _)
  rw [el, er]
  exact congrArg (x (ix2 (i 0) k) * ·) (ht _)

theorem colSums_apply (y : T Ideal S8192x2048) (j : S2048.Idx) : colSums y j = ∑ p : Fin 8192, y (ix2 p (j 0)) := by
  unfold colSums
  simp only [Host.reduceAdd, Ideal.hostReduceAdd_def]
  rw [Ideal.hostReduceAdd_single reducesTo_S8192x2048_S2048_d0 (by decide)]
  refine (congrArg₂ (· + ·) Ideal.ofBits_zero_f32 (Finset.sum_congr rfl fun k _ =>
    congrArg y (funext fun a => Fin.ext (by match a with | ⟨0, _⟩ => rfl | ⟨1, _⟩ => rfl)))).trans (zero_add _)

section ValueIdeal
variable (x0 : T Ideal S8192x2048) (x1 : T Ideal S2048x2048) (x2 x3 x4 : T Ideal S2048)

theorem y_eq : y x0 x1 x2 = Spec.YR x0 x1 x2 := funext fun i => by
  unfold y
  rw [qstV_apply]
  show Spec.qst (qstV (F := Ideal) _ _ (lin _ _) i + rows (F := Ideal) _ i) = _
  rw [qstV_apply, lin_apply, rows_apply, qstV_apply, qstV_eq]
  rfl

theorem mean_apply (j : S2048.Idx) : mean x0 x1 x2 j = Spec.meanR (Spec.YR x0 x1 x2) (j 0) := by
  unfold mean
  show Ideal.div (colSums (F := Ideal) _ j) _ = _
  rw [colSums_apply, y_eq]
  rfl

theorem var_apply (j : S2048.Idx) : var x0 x1 x2 j = Spec.varR (Spec.YR x0 x1 x2) (j 0) := by
  unfold var
  show Ideal.div (colSums (F := Ideal) _ j) _ = _
  rw [colSums_apply]
  refine congrArg (Ideal.div · _) (Finset.sum_congr rfl fun p _ => ?_)
  show (y x0 x1 x2 _ - rows (F := Ideal) _ _) * (y x0 x1 x2 _ - rows (F := Ideal) _ _) = _
  rw [rows_apply, mean_apply, y_eq]

theorem rstd_apply (j : S2048.Idx) :
    Host.rsqrt (addf (var x0 x1 x2) (fill (F := Ideal) S2048 bcast_S_S2048 0x3727C5AC#32)) j = Ideal.rsqrt (Spec.varR (Spec.YR x0 x1 x2) (j 0) + Spec.eps) := by
  show Ideal.rsqrt (var x0 x1 x2 j + _) = _
  rw [var_apply]
  rfl

/-- Stage by stage the reference computes the second spelling of the layer. -/
theorem result_eq : result x0 x1 x2 x3 x4 = Spec.R x0 x1 x2 x3 x4 := funext fun i => by
  unfold result
  rw [qstV_apply, addf_apply, mulf_apply, mulf_apply, subf_apply, rows_apply, rows_apply, rows_apply, rows_apply, mean_apply, y_eq, rstd_apply]
  rfl

end ValueIdeal

end Cert.ReferenceIdeal.Read

end
-- ==== Proof.Ref.Run.lean ====
import proofs.«128430_j57578331570847_1_alg».proof.Proof.Ref.Read
import Idealize.ShloMosaic.Lib.StableHlo.Run

noncomputable section

namespace Cert.ReferenceIdeal.Value

open Cert.ReferenceIdeal Cert.ReferenceIdeal.Gen Idealize.ShloMosaic Idealize.ShloMosaic.TcCoe Idealize.SL.Sem Idealize.ShloMosaic.StableHlo

open Cert.ReferenceIdeal.Read (T)

variable {F : FTy → Type} [FloatOps F]

abbrev ops : List (HloOp τ sig (Elt F)) :=
  [ nullary main_cst (constant S_ .f32 0xC3000000#32),
    nullary main_cst_0 (constant S_ .f32 0x42FFFE00#32),
    TRef.unary (TRef.of (T := ⟨S_, .f32⟩) main_cst) (TRef.of (T := ⟨S_, .f32⟩) main_call0_v0) id,
    TRef.unary (TRef.of (T := ⟨S_, .f32⟩) main_call0_v0) (TRef.of (T := ⟨S2048x2048, .f32⟩) main_call0_v1) (broadcastInDim S2048x2048 ![] bcast_S_S2048x2048),
    TRef.binary (TRef.of (T := ⟨S2048x2048, .f32⟩) main_call0_v1) (TRef.of (T := ⟨S2048x2048, .f32⟩) main_arg1) (TRef.of (T := ⟨S2048x2048, .f32⟩) main_call0_v2) maximumf,
    TRef.unary (TRef.of (T := ⟨S_, .f32⟩) main_cst_0) (TRef.of (T := ⟨S_, .f32⟩) main_call0_v3) id,
    TRef.unary (TRef.of (T := ⟨S_, .f32⟩) main_call0_v3) (TRef.of (T := ⟨S2048x2048, .f32⟩) main_call0_v4) (broadcastInDim S2048x2048 ![] bcast_S_S2048x2048),
    TRef.binary (TRef.of (T := ⟨S2048x2048, .f32⟩) main_call0_v4) (TRef.of (T := ⟨S2048x2048, .f32⟩) main_call0_v2) (TRef.of (T := ⟨S2048x2048, .f32⟩) main_v0) minimumf,
    nullary main_cst_1 (constant S_ .f32 0x43800000#32),
    unary main_cst_1 main_v1 (broadcastInDim S2048x2048 ![] bcast_S_S2048x2048 : T F S_ → T F S2048x2048),
    binary main_v0 main_v1 main_v2 (mulf : T F S2048x2048 → T F S2048x2048 → T F S2048x2048),
    TRef.unary (TRef.of (T := ⟨S2048x2048, .f32⟩) main_v2) (TRef.of (T := ⟨S2048x2048, .f32⟩) main_v3) Host.roundeven,
    nullary main_cst_2 (constant S_ .f32 0x43800000#32),
    unary main_cst_2 main_v4 (broadcastInDim S2048x2048 ![] bcast_S_S2048x2048 : T F S_ → T F S2048x2048),
    binary main_v3 main_v4 main_v5 (Host.divf : T F S2048x2048 → T F S2048x2048 → T F S2048x2048),
    binary main_v5 main_v0 main_v6 (subf : T F S2048x2048 → T F S2048x2048 → T F S2048x2048),
    binary main_v0 main_v6 main_v7 (addf : T F S2048x2048 → T F S2048x2048 → T F S2048x2048),
    nullary main_cst_3 (constant S_ .f32 0xC3000000#32),
    nullary main_cst_4 (constant S_ .f32 0x42FFFE00#32),
    TRef.unary (TRef.of (T := ⟨S_, .f32⟩) main_cst_3) (TRef.of (T := ⟨S_, .f32⟩) main_call2_v0) id,
    TRef.unary (TRef.of (T := ⟨S_, .f32⟩) main_call2_v0) (TRef.of (T := ⟨S2048, .f32⟩) main_call2_v1) (broadcastInDim S2048 ![] bcast_S_S2048),
    TRef.binary (TRef.of (T := ⟨S2048, .f32⟩) main_call2_v1) (TRef.of (T := ⟨S2048, .f32⟩) main_arg2) (TRef.of (T := ⟨S2048, .f32⟩) main_call2_v2) maximumf,
    TRef.unary (TRef.of (T := ⟨S_, .f32⟩) main_cst_4) (TRef.of (T := ⟨S_, .f32⟩) main_call2_v3) id,
    TRef.unary (TRef.of (T := ⟨S_, .f32⟩) main_call2_v3) (TRef.of (T := ⟨S2048, .f32⟩) main_call2_v4) (broadcastInDim S2048 ![] bcast_S_S2048),
    TRef.binary (TRef.of (T := ⟨S2048, .f32⟩) main_call2_v4) (TRef.of (T := ⟨S2048, .f32⟩) main_call2_v2) (TRef.of (T := ⟨S2048, .f32⟩) main_v8) minimumf,
    nullary main_cst_5 (constant S_ .f32 0x43800000#32),
    unary main_cst_5 main_v9 (broadcastInDim S2048 ![] bcast_S_S2048 : T F S_ → T F S2048),
    binary main_v8 main_v9 main_v10 (mulf : T F S2048 → T F S2048 → T F S2048),
    TRef.unary (TRef.of (T := ⟨S2048, .f32⟩) main_v10) (TRef.of (T := ⟨S2048, .f32⟩) main_v11) Host.roundeven,
    nullary main_cst_6 (constant S_ .f32 0x43800000#32),
    unary main_cst_6 main_v12 (broadcastInDim S2048 ![] bcast_S_S2048 : T F S_ → T F S2048),
    binary main_v11 main_v12 main_v13 (Host.divf : T F S2048 → T F S2048 → T F S2048),
    binary main_v13 main_v8 main_v14 (subf : T F S2048 → T F S2048 → T F S2048),
    binary main_v8 main_v14 main_v15 (addf : T F S2048 → T F S2048 → T F S2048),
    unary main_v7 main_v16 ((transpose S2048x2048 [1, 0] · transposes_S2048x2048_S2048x2048_1_0) : T F S2048x2048 → T F S2048x2048),
    binary main_arg0 main_v16 main_v17 ((fun l r => Host.dotGeneral dot_S8192x2048_S2048x2048_S8192x2048_1_0_0_1_n_n none l r) : T F S8192x2048 → T F S2048x2048 → T F S8192x2048),
    nullary main_cst_7 (constant S_ .f32 0xC3000000#32),
    nullary main_cst_8 (constant S_ .f32 0x42FFFE00#32),
    TRef.unary (TRef.of (T := ⟨S_, .f32⟩) main_cst_7) (TRef.of (T := ⟨S_, .f32⟩) main_call4_v0) id,
    TRef.unary (TRef.of (T := ⟨S_, .f32⟩) main_call4_v0) (TRef.of (T := ⟨S8192x2048, .f32⟩) main_call4_v1) (broadcastInDim S8192x2048 ![] bcast_S_S8192x2048),
    TRef.binary (TRef.of (T := ⟨S8192x2048, .f32⟩) main_call4_v1) (TRef.of (T := ⟨S8192x2048, .f32⟩) main_v17) (TRef.of (T := ⟨S8192x2048, .f32⟩) main_call4_v2) maximumf,
    TRef.unary (TRef.of (T := ⟨S_, .f32⟩) main_cst_8) (TRef.of (T := ⟨S_, .f32⟩) main_call4_v3) id,
    TRef.unary (TRef.of (T := ⟨S_, .f32⟩) main_call4_v3) (TRef.of (T := ⟨S8192x2048, .f32⟩) main_call4_v4) (broadcastInDim S8192x2048 ![] bcast_S_S8192x2048),
    TRef.binary (TRef.of (T := ⟨S8192x2048, .f32⟩) main_call4_v4) (TRef.of (T := ⟨S8192x2048, .f32⟩) main_call4_v2) (TRef.of (T := ⟨S8192x2048, .f32⟩) main_v18) minimumf,
    nullary main_cst_9 (constant S_ .f32 0x43800000#32),
    unary main_cst_9 main_v19 (broadcastInDim S8192x2048 ![] bcast_S_S8192x2048 : T F S_ → T F S8192x2048),
    binary main_v18 main_v19 main_v20 (mulf : T F S8192x2048 → T F S8192x2048 → T F S8192x2048),
    TRef.unary (TRef.of (T := ⟨S8192x2048, .f32⟩) main_v20) (TRef.of (T := ⟨S8192x2048, .f32⟩) main_v21) Host.roundeven,
    nullary main_cst_10 (constant S_ .f32 0x43800000#32),
    unary main_cst_10 main_v22 (broadcastInDim S8192x2048 ![] bcast_S_S8192x2048 : T F S_ → T F S8192x2048),
    binary main_v21 main_v22 main_v23 (Host.divf : T F S8192x2048 → T F S8192x2048 → T F S8192x2048),
    binary main_v23 main_v18 main_v24 (subf : T F S8192x2048 → T F S8192x2048 → T F S8192x2048),
    binary main_v18 main_v24 main_v25 (addf : T F S8192x2048 → T F S8192x2048 → T F S8192x2048),
    unary main_v15 main_v26 (broadcastInDim S1x2048 ![1] bcast_S2048_S1x2048_1 : T F S2048 → T F S1x2048),
    unary main_v26 main_v27 (broadcastInDim S8192x2048 ![0, 1] bcast_S1x2048_S8192x2048_0_1 : T F S1x2048 → T F S8192x2048),
    binary main_v25 main_v27 main_v28 (addf : T F S8192x2048 → T F S8192x2048 → T F S8192x2048),
    nullary main_cst_11 (constant S_ .f32 0xC3000000#32),
    nullary main_cst_12 (constant S_ .f32 0x42FFFE00#32),
    TRef.unary (TRef.of (T := ⟨S_, .f32⟩) main_cst_11) (TRef.of (T := ⟨S_, .f32⟩) main_call6_v0) id,
    TRef.unary (TRef.of (T := ⟨S_, .f32⟩) main_call6_v0) (TRef.of (T := ⟨S8192x2048, .f32⟩) main_call6_v1) (broadcastInDim S8192x2048 ![] bcast_S_S8192x2048),
    TRef.binary (TRef.of (T := ⟨S8192x2048, .f32⟩) main_call6_v1) (TRef.of (T := ⟨S8192x2048, .f32⟩) main_v28) (TRef.of (T := ⟨S8192x2048, .f32⟩) main_call6_v2) maximumf,
    TRef.unary (TRef.of (T := ⟨S_, .f32⟩) main_cst_12) (TRef.of (T := ⟨S_, .f32⟩) main_call6_v3) id,
    TRef.unary (TRef.of (T := ⟨S_, .f32⟩) main_call6_v3) (TRef.of (T := ⟨S8192x2048, .f32⟩) main_call6_v4) (broadcastInDim S8192x2048 ![] bcast_S_S8192x2048),
    TRef.binary (TRef.of (T := ⟨S8192x2048, .f32⟩) main_call6_v4) (TRef.of (T := ⟨S8192x2048, .f32⟩) main_call6_v2) (TRef.of (T := ⟨S8192x2048, .f32⟩) main_v29) minimumf,
    nullary main_cst_13 (constant S_ .f32 0x43800000#32),
    unary main_cst_13 main_v30 (broadcastInDim S8192x2048 ![] bcast_S_S8192x2048 : T F S_ → T F S8192x2048),
    binary main_v29 main_v30 main_v31 (mulf : T F S8192x2048 → T F S8192x2048 → T F S8192x2048),
    TRef.unary (TRef.of (T := ⟨S8192x2048, .f32⟩) main_v31) (TRef.of (T := ⟨S8192x2048, .f32⟩) main_v32) Host.roundeven,
    nullary main_cst_14 (constant S_ .f32 0x43800000#32),
    unary main_cst_14 main_v33 (broadcastInDim S8192x2048 ![] bcast_S_S8192x2048 : T F S_ → T F S8192x2048),
    binary main_v32 main_v33 main_v34 (Host.divf : T F S8192x2048 → T F S8192x2048 → T F S8192x2048),
    binary main_v34 main_v29 main_v35 (subf : T F S8192x2048 → T F S8192x2048 → T F S8192x2048),
    binary main_v29 main_v35 main_v36 (addf : T F S8192x2048 → T F S8192x2048 → T F S8192x2048),
    nullary main_cst_15 (constant S_ .f32 0x00000000#32),
    binary main_v36 main_cst_15 main_v37 ((fun x v => Host.reduceAdd x v reducesTo_S8192x2048_S2048_d0 h_S_) : T F S8192x2048 → T F S_ → T F S2048),
    nullary main_cst_16 (constant S_ .f32 0x46000000#32),
    unary main_cst_16 main_v38 (broadcastInDim S2048 ![] bcast_S_S2048 : T F S_ → T F S2048),
    binary main_v37 main_v38 main_v39 (Host.divf : T F S2048 → T F S2048 → T F S2048),
    unary main_v39 main_v40 (broadcastInDim S1x2048 ![1] bcast_S2048_S1x2048_1 : T F S2048 → T F S1x2048),
    unary main_v40 main_v41 (broadcastInDim S8192x2048 ![0, 1] bcast_S1x2048_S8192x2048_0_1 : T F S1x2048 → T F S8192x2048),
    binary main_v36 main_v41 main_v42 (subf : T F S8192x2048 → T F S8192x2048 → T F S8192x2048),
    binary main_v42 main_v42 main_v43 (mulf : T F S8192x2048 → T F S8192x2048 → T F S8192x2048),
    nullary main_cst_17 (constant S_ .f32 0x00000000#32),
    binary main_v43 main_cst_17 main_v44 ((fun x v => Host.reduceAdd x v reducesTo_S8192x2048_S2048_d0 h_S_) : T F S8192x2048 → T F S_ → T F S2048),
    nullary main_cst_18 (constant S_ .f32 0x46000000#32),
    unary main_cst_18 main_v45 (broadcastInDim S2048 ![] bcast_S_S2048 : T F S_ → T F S2048),
    binary main_v44 main_v45 main_v46 (Host.divf : T F S2048 → T F S2048 → T F S2048),
    unary main_v39 main_v47 (broadcastInDim S1x2048 ![1] bcast_S2048_S1x2048_1 : T F S2048 → T F S1x2048),
    unary main_v47 main_v48 (broadcastInDim S8192x2048 ![0, 1] bcast_S1x2048_S8192x2048_0_1 : T F S1x2048 → T F S8192x2048),
    binary main_v36 main_v48 main_v49 (subf : T F S8192x2048 → T F S8192x2048 → T F S8192x2048),
    nullary main_cst_19 (constant S_ .f32 0x3727C5AC#32),
    unary main_cst_19 main_v50 (broadcastInDim S2048 ![] bcast_S_S2048 : T F S_ → T F S2048),
    binary main_v46 main_v50 main_v51 (addf : T F S2048 → T F S2048 → T F S2048),
    unary main_v51 main_v52 (Host.rsqrt : T F S2048 → T F S2048),
    unary main_v52 main_v53 (broadcastInDim S1x2048 ![1] bcast_S2048_S1x2048_1 : T F S2048 → T F S1x2048),
    unary main_v53 main_v54 (broadcastInDim S8192x2048 ![0, 1] bcast_S1x2048_S8192x2048_0_1 : T F S1x2048 → T F S8192x2048),
    binary main_v49 main_v54 main_v55 (mulf : T F S8192x2048 → T F S8192x2048 → T F S8192x2048),
    unary main_arg3 main_v56 (broadcastInDim S1x2048 ![1] bcast_S2048_S1x2048_1 : T F S2048 → T F S1x2048),
    unary main_v56 main_v57 (broadcastInDim S8192x2048 ![0, 1] bcast_S1x2048_S8192x2048_0_1 : T F S1x2048 → T F S8192x2048),
    binary main_v57 main_v55 main_v58 (mulf : T F S8192x2048 → T F S8192x2048 → T F S8192x2048),
    unary main_arg4 main_v59 (broadcastInDim S1x2048 ![1] bcast_S2048_S1x2048_1 : T F S2048 → T F S1x2048),
    unary main_v59 main_v60 (broadcastInDim S8192x2048 ![0, 1] bcast_S1x2048_S8192x2048_0_1 : T F S1x2048 → T F S8192x2048),
    binary main_v58 main_v60 main_v61 (addf : T F S8192x2048 → T F S8192x2048 → T F S8192x2048),
    nullary main_cst_20 (constant S_ .f32 0xC3000000#32),
    nullary main_cst_21 (constant S_ .f32 0x42FFFE00#32),
    TRef.unary (TRef.of (T := ⟨S_, .f32⟩) main_cst_20) (TRef.of (T := ⟨S_, .f32⟩) main_call8_v0) id,
    TRef.unary (TRef.of (T := ⟨S_, .f32⟩) main_call8_v0) (TRef.of (T := ⟨S8192x2048, .f32⟩) main_call8_v1) (broadcastInDim S8192x2048 ![] bcast_S_S8192x2048),
    TRef.binary (TRef.of (T := ⟨S8192x2048, .f32⟩) main_call8_v1) (TRef.of (T := ⟨S8192x2048, .f32⟩) main_v61) (TRef.of (T := ⟨S8192x2048, .f32⟩) main_call8_v2) maximumf,
    TRef.unary (TRef.of (T := ⟨S_, .f32⟩) main_cst_21) (TRef.of (T := ⟨S_, .f32⟩) main_call8_v3) id,
    TRef.unary (TRef.of (T := ⟨S_, .f32⟩) main_call8_v3) (TRef.of (T := ⟨S8192x2048, .f32⟩) main_call8_v4) (broadcastInDim S8192x2048 ![] bcast_S_S8192x2048),
    TRef.binary (TRef.of (T := ⟨S8192x2048, .f32⟩) main_call8_v4) (TRef.of (T := ⟨S8192x2048, .f32⟩) main_call8_v2) (TRef.of (T := ⟨S8192x2048, .f32⟩) main_v62) minimumf,
    nullary main_cst_22 (constant S_ .f32 0x43800000#32),
    unary main_cst_22 main_v63 (broadcastInDim S8192x2048 ![] bcast_S_S8192x2048 : T F S_ → T F S8192x2048),
    binary main_v62 main_v63 main_v64 (mulf : T F S8192x2048 → T F S8192x2048 → T F S8192x2048),
    TRef.unary (TRef.of (T := ⟨S8192x2048, .f32⟩) main_v64) (TRef.of (T := ⟨S8192x2048, .f32⟩) main_v65) Host.roundeven,
    nullary main_cst_23 (constant S_ .f32 0x43800000#32),
    unary main_cst_23 main_v66 (broadcastInDim S8192x2048 ![] bcast_S_S8192x2048 : T F S_ → T F S8192x2048),
    binary main_v65 main_v66 main_v67 (Host.divf : T F S8192x2048 → T F S8192x2048 → T F S8192x2048),
    binary main_v67 main_v62 main_v68 (subf : T F S8192x2048 → T F S8192x2048 → T F S8192x2048),
    binary main_v62 main_v68 main_v69 (addf : T F S8192x2048 → T F S8192x2048 → T F S8192x2048) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., nullary_bufs_sub .., unary_bufs_sub .., unary_bufs_sub .., binary_bufs_sub .., unary_bufs_sub .., unary_bufs_sub .., binary_bufs_sub .., nullary_bufs_sub .., unary_bufs_sub .., binary_bufs_sub .., unary_bufs_sub .., nullary_bufs_sub .., unary_bufs_sub .., binary_bufs_sub .., binary_bufs_sub .., binary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., unary_bufs_sub .., nullary_bufs_sub .., unary_bufs_sub .., binary_bufs_sub .., binary_bufs_sub .., binary_bufs_sub .., unary_bufs_sub .., binary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., unary_bufs_sub .., nullary_bufs_sub .., unary_bufs_sub .., binary_bufs_sub .., binary_bufs_sub .., binary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., unary_bufs_sub .., nullary_bufs_sub .., unary_bufs_sub .., binary_bufs_sub .., binary_bufs_sub .., binary_bufs_sub .., nullary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., unary_bufs_sub .., nullary_bufs_sub .., unary_bufs_sub .., binary_bufs_sub .., binary_bufs_sub .., binary_bufs_sub ..⟩

set_option maxRecDepth 8192 in
set_option maxHeartbeats 48000000 in

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v69) = Read.result (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v69).trans (by after_results_simp <;> rfl),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl)⟩)
    (run_seq scopedRefs_eq scopedSems_eq defs main (fun _ => ops) main_eq (fun _ => ops_sub) m ρ)

end Cert.ReferenceIdeal.Value

end
-- ==== Proof.SpecLaws.lean ====
import proofs.«128430_j57578331570847_1_alg».proof.Proof.Spec
import Mathlib.Data.EReal.Basic
import Mathlib.Data.EReal.Operations
import Mathlib.Data.EReal.Inv
import Mathlib.Algebra.BigOperators.Group.Finset.Basic
import Mathlib.Algebra.BigOperators.Ring.Finset
import Mathlib.Data.Fintype.BigOperators
import Mathlib.Logic.Equiv.Fin.Basic
import Mathlib.Tactic.Ring
import Mathlib.Tactic.NormNum
import Mathlib.Tactic.Linarith

noncomputable section

namespace Cert.Spec

open Idealize.ShloMosaic Idealize.ShloMosaic.ValueIdx

theorem lo_eq : lo = ((-128 : ℝ) : EReal) := by
  simp [lo, Ideal.ofBits, Ideal.ieee, -EReal.coe_mul]; norm_num

theorem hi_eq : hi = ((32767 / 256 : ℝ) : EReal) := by
  simp [hi, Ideal.ofBits, Ideal.ieee, -EReal.coe_mul]; norm_num

theorem sc_eq : sc = ((256 : ℝ) : EReal) := by
  simp [sc, Ideal.ofBits, Ideal.ieee, -EReal.coe_mul]; norm_num

theorem invN_eq : invN = ((1 / 8192 : ℝ) : EReal) := by
  simp [invN, Ideal.ofBits, Ideal.ieee, -EReal.coe_mul]; norm_num

theorem nRows_eq : nRows = ((8192 : ℝ) : EReal) := by
  simp [nRows, Ideal.ofBits, Ideal.ieee, -EReal.coe_mul]; norm_num

theorem clip_ne_top (t : EReal) : clip t ≠ ⊤ := by
  have h : clip t ≤ hi := min_le_left _ _
  rw [hi_eq] at h
  exact ne_top_of_le_ne_top (EReal.coe_ne_top _) h

theorem clip_ne_bot (t : EReal) : clip t ≠ ⊥ := by
  have hlh : lo ≤ hi := by
    rw [lo_eq, hi_eq]; exact_mod_cast (by norm_num : (-128 : ℝ) ≤ 32767 / 256)
  have h : lo ≤ clip t := le_min hlh (le_max_left _ _)
  rw [lo_eq] at h
  exact ne_bot_of_le_ne_bot (EReal.coe_ne_bot _) h

theorem clip_real (t : EReal) : ∃ r : ℝ, clip t = (r : EReal) :=
  ⟨(clip t).toReal, (EReal.coe_toReal (clip_ne_top t) (clip_ne_bot t)).symm⟩

theorem coe_add_sub_coe (r : ℝ) (u : EReal) : (r : EReal) + (u - (r : EReal)) = u := by
  induction u using EReal.rec with
  | bot => simp
  | coe x => rw [← EReal.coe_sub, ← EReal.coe_add]; congr 1; ring
  | top => simp

theorem qst_eq_q (t : EReal) : qst t = q t := by
  obtain ⟨r, hr⟩ := clip_real t
  rw [qst, hr]; exact coe_add_sub_coe r (q t)

theorem Qst_eq_Q {s : Shape} (v : s.Idx → EReal) : Qst v = Q v := funext fun i => qst_eq_q (v i)

theorem q_real (t : EReal) : ∃ r : ℝ, q t = (r : EReal) := by
  obtain ⟨r, hr⟩ := clip_real t
  refine ⟨((Ideal.roundHalfEven (r * 256) : ℤ) : ℝ) * (1 / 256), ?_⟩
  rw [q, hr, sc_eq, ← EReal.coe_mul, Ideal.liftRound_coe, Ideal.div_coe (by norm_num), ← EReal.coe_mul]

theorem normR_eq_norm (yv mu va g b : EReal) : normR yv mu va g b = norm yv mu va g b := qst_eq_q _

theorem YR_eq_Y0 (x : SX.Idx → EReal) (w : SW.Idx → EReal) (b : SV.Idx → EReal) :
    YR x w b = Y0 x (Q w) (row (Q b)) := by
  funext i
  simp only [YR, Y0, qst_eq_q, Qst_eq_Q]
  rfl

theorem Y0_real (x : SX.Idx → EReal) (w : SW.Idx → EReal) (b2 : SR.Idx → EReal) (i : SX.Idx) :
    ∃ r : ℝ, Y0 x w b2 i = (r : EReal) := q_real _

theorem coe_sum {ι : Type} (s : Finset ι) (f : ι → ℝ) :
    ((∑ i ∈ s, f i : ℝ) : EReal) = ∑ i ∈ s, (f i : EReal) := by
  classical
  refine Finset.induction_on s (by simp) ?_
  intro a s ha ih
  rw [Finset.sum_insert ha, Finset.sum_insert ha, EReal.coe_add, ih]

theorem meanR_eq_meanK (y : SX.Idx → EReal) (j : Fin 2048) : meanR y j = meanK y j := by
  rw [meanR, meanK, nRows_eq, invN_eq, Ideal.div_coe (by norm_num)]

theorem sum_sq_dev (f : Fin 8192 → ℝ) (m : ℝ) :
    ∑ p, (f p - m) * (f p - m) = ∑ p, f p * f p - 2 * m * ∑ p, f p + 8192 * (m * m) := by
  calc ∑ p, (f p - m) * (f p - m) = ∑ p, (f p * f p - 2 * m * f p + m * m) :=
        Finset.sum_congr rfl (fun p _ => by ring)
    _ = ∑ p, f p * f p - 2 * m * ∑ p, f p + 8192 * (m * m) := by
        rw [Finset.sum_add_distrib, Finset.sum_sub_distrib, ← Finset.mul_sum, Finset.sum_const, Finset.card_univ,
          Fintype.card_fin, nsmul_eq_mul]
        norm_num

theorem var_real (f : Fin 8192 → ℝ) :
    (∑ p, (f p - (∑ p, f p) * (1 / 8192)) * (f p - (∑ p, f p) * (1 / 8192))) * (1 / 8192)
      = (∑ p, f p * f p) * (1 / 8192) - ((∑ p, f p) * (1 / 8192)) * ((∑ p, f p) * (1 / 8192)) := by
  rw [sum_sq_dev]; ring

theorem varR_eq_varK (y : SX.Idx → EReal) (hy : ∀ i, ∃ r : ℝ, y i = (r : EReal)) (j : Fin 2048) :
    varR y j = varK y j := by
  choose f hf using hy
  have hS : colSum y j = ((∑ p : Fin 8192, f (ix2 p j) : ℝ) : EReal) := by
    rw [colSum, coe_sum]; exact Finset.sum_congr rfl (fun p _ => hf _)
  have hQ : colSumSq y j = ((∑ p : Fin 8192, f (ix2 p j) * f (ix2 p j) : ℝ) : EReal) := by
    rw [colSumSq, coe_sum]; exact Finset.sum_congr rfl (fun p _ => by rw [hf, ← EReal.coe_mul])
  have hm : meanK y j = (((∑ p : Fin 8192, f (ix2 p j)) * (1 / 8192) : ℝ) : EReal) := by
    rw [meanK, hS, invN_eq, ← EReal.coe_mul]
  have hD : ∑ p : Fin 8192, (y (ix2 p j) - meanK y j) * (y (ix2 p j) - meanK y j)
      = ((∑ p : Fin 8192, (f (ix2 p j) - (∑ p : Fin 8192, f (ix2 p j)) * (1 / 8192))
          * (f (ix2 p j) - (∑ p : Fin 8192, f (ix2 p j)) * (1 / 8192)) : ℝ) : EReal) := by
    rw [coe_sum, hm]
    exact Finset.sum_congr rfl (fun p _ => by rw [hf, ← EReal.coe_sub, ← EReal.coe_mul])
  rw [varR, varK, meanR_eq_meanK, hD, hQ, hm, nRows_eq, invN_eq, Ideal.div_coe (by norm_num), ← EReal.coe_mul,
    ← EReal.coe_mul, ← EReal.coe_mul, ← EReal.coe_sub, var_real]

theorem R_eq_K (x : SX.Idx → EReal) (w : SW.Idx → EReal) (b g β : SV.Idx → EReal) :
    R x w b g β = K x w b g β := by
  funext i
  have hY : YR x w b = Y0 x (Q w) (row (Q b)) := YR_eq_Y0 x w b
  have hmean : meanR (YR x w b) (i 1) = meanK (Y0 x (Q w) (row (Q b))) (i 1) := by
    rw [hY]; exact meanR_eq_meanK _ _
  have hvar : varR (YR x w b) (i 1) = varK (Y0 x (Q w) (row (Q b))) (i 1) := by
    rw [hY]; exact varR_eq_varK _ (Y0_real x (Q w) (row (Q b))) _
  have h1 : R x w b g β i
      = norm (YR x w b i) (meanR (YR x w b) (i 1)) (varR (YR x w b) (i 1)) (g (ix1 (i 1))) (β (ix1 (i 1))) :=
    normR_eq_norm _ _ _ _ _
  rw [h1, hmean, hvar, hY]
  rfl

end Cert.Spec

end
-- ==== Proof.lean ====
import proofs.«128430_j57578331570847_1_alg».proof.Defs
import proofs.«128430_j57578331570847_1_alg».proof.Proof.Gen.Kernel
import proofs.«128430_j57578331570847_1_alg».proof.Proof.Gen.KernelIdeal
import proofs.«128430_j57578331570847_1_alg».proof.Proof.Gen.ReferenceIdeal
import proofs.«128430_j57578331570847_1_alg».proof.Proof.Gen.Pre_finite_inputs
import proofs.«128430_j57578331570847_1_alg».proof.Proof.SameProgram
import proofs.«128430_j57578331570847_1_alg».proof.Proof.KernelIdeal.Assemble
import proofs.«128430_j57578331570847_1_alg».proof.Proof.Value.All
import proofs.«128430_j57578331570847_1_alg».proof.Proof.Ref.Run
import proofs.«128430_j57578331570847_1_alg».proof.Proof.SpecLaws
import Idealize.ShloMosaic.Adequacy
import Idealize.ShloMosaic.Init

noncomputable section

namespace Cert.Proof

open Idealize.ShloMosaic Idealize.ShloMosaic.TcCoe Idealize.SL.Sem

/-- The idealized kernel's frame holds at every float family, and the two kernel programs are one text. -/
theorem frame_k : Cert.frame_Kernel := fun m ρ _ => by
  rw [Cert.SameProgram.defs_eq, Cert.SameProgram.main_eq]
  exact Cert.KernelIdeal.Hand.frame (F := Bits) m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both results are one function of the five arguments: the kernel's spelling, the reference's, and the law between them. -/
theorem algebraic : Cert.algebraic_KernelIdeal_ReferenceIdeal := by
  intro m ρ m' ρ' _ hagree
  refine ⟨fun c => Cert.KernelIdeal.Hand.X12 m c Cert.KernelIdeal.main_v17, Cert.KernelIdeal.Hand.run_main m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.result_eq, Cert.Spec.R_eq_K,
    (hagree c).1, (hagree c).2.1, (hagree c).2.2.1, (hagree c).2.2.2.1, (hagree c).2.2.2.2]
  exact (Cert.KernelIdeal.ValAll.result m c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
